-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S1x12x160x160x160 : Shape := ⟨5, ![1, 12, 160, 160, 160]⟩
abbrev S3 : Shape := ⟨1, ![3]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S1x12x160x160x160 : S_.BroadcastsInDim S1x12x160x160x160 (![] : Fin 0 → Fin S1x12x160x160x160.rank)
  reducesTo_S1x12x160x160x160_S_d0_1_2_3_4 : S1x12x160x160x160.ReducesTo [0, 1, 2, 3, 4] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S2097152x3 .f32) (main_arg1 : FVec F S1x12x160x160x160 .f32) (main_arg2 : FVec F S3 .f32) (main_arg3 : FVec F S3 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S1x12x160x160x160 .f32 := Host.absf main_arg1
  let main_cst_0 : FVec F S_ .f32 := constant S_ .f32 0x7F800000#32
  let main_v5 : FVec F S1x12x160x160x160 .f32 := broadcastInDim S1x12x160x160x160 ![] bcast_S_S1x12x160x160x160 main_cst_0
  let main_v6 : IVec S1x12x160x160x160 1 := cmpf .olt main_v4 main_v5
  let main_c_1 : IVec S_ 1 := constantI S_ 1 1#1
  let main_v7 : IVec S_ 1 := (fun x v => Host.reduce IntOp.andi x v reducesTo_S1x12x160x160x160_S_d0_1_2_3_4 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S2097152x3 : Shape := ⟨2, ![2097152, 3]⟩
abbrev S1x12x160x160x160 : Shape := ⟨5, ![1, 12, 160, 160, 160]⟩
abbrev S3 : Shape := ⟨1, ![3]⟩
abbrev S12x160x160x160 : Shape := ⟨4, ![12, 160, 160, 160]⟩
abbrev S1x3 : Shape := ⟨2, ![1, 3]⟩
abbrev S_ : Shape := ⟨0, ![]⟩
abbrev S2097152x1 : Shape := ⟨2, ![2097152, 1]⟩
abbrev S2097152 : Shape := ⟨1, ![2097152]⟩
abbrev S160x160x160x12 : Shape := ⟨4, ![160, 160, 160, 12]⟩
abbrev S4096000x12 : Shape := ⟨2, ![4096000, 12]⟩
abbrev S1 : Shape := ⟨1, ![1]⟩
abbrev S1x1 : Shape := ⟨2, ![1, 1]⟩
abbrev S2097152x12 : Shape := ⟨2, ![2097152, 12]⟩
abbrev S32768x1 : Shape := ⟨2, ![32768, 1]⟩
abbrev S32768x12 : Shape := ⟨2, ![32768, 12]⟩

abbrev nBuf : Space → Nat
  | .hbm => 372
  | .vmem => 24
  | .smem => 0
  | _ => 0

abbrev hbmTy0_0 (i : Nat) : BufTy := match i % 128 with
  | 0 => ⟨S2097152x3, .f32⟩
  | 1 => ⟨S1x12x160x160x160, .f32⟩
  | 2 => ⟨S3, .f32⟩
  | 3 => ⟨S3, .f32⟩
  | 4 => ⟨S12x160x160x160, .f32⟩
  | 5 => ⟨S1x3, .f32⟩
  | 6 => ⟨S2097152x3, .f32⟩
  | 7 => ⟨S2097152x3, .f32⟩
  | 8 => ⟨S3, .f32⟩
  | 9 => ⟨S1x3, .f32⟩
  | 10 => ⟨S2097152x3, .f32⟩
  | 11 => ⟨S2097152x3, .f32⟩
  | 12 => ⟨S2097152x3, .f32⟩
  | 13 => ⟨S_, .f32⟩
  | 14 => ⟨S2097152x3, .f32⟩
  | 15 => ⟨S2097152x3, .f32⟩
  | 16 => ⟨S_, .f32⟩
  | 17 => ⟨S2097152x3, .f32⟩
  | 18 => ⟨S2097152x3, .f32⟩
  | 19 => ⟨S2097152x1, .f32⟩
  | 20 => ⟨S2097152, .f32⟩
  | 21 => ⟨S2097152x1, .f32⟩
  | 22 => ⟨S2097152, .f32⟩
  | 23 => ⟨S2097152x1, .f32⟩
  | 24 => ⟨S2097152, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S2097152, .f32⟩
  | 36 => ⟨S2097152, .f32⟩
  | 37 => ⟨S_, .f32⟩
  | 38 => ⟨S2097152, .f32⟩
  | 39 => ⟨S2097152, .f32⟩
  | 40 => ⟨S_, .f32⟩
  | 41 => ⟨S2097152, .f32⟩
  | 42 => ⟨S2097152, .f32⟩
  | 43 => ⟨S_, .f32⟩
  | 44 => ⟨S2097152, .f32⟩
  | 45 => ⟨S2097152, .f32⟩
  | 46 => ⟨S_, .f32⟩
  | 47 => ⟨S2097152, .f32⟩
  | 48 => ⟨S2097152, .f32⟩
  | 49 => ⟨S_, .f32⟩
  | 50 => ⟨S2097152, .f32⟩
  | 51 => ⟨S2097152, .f32⟩
  | 52 => ⟨S2097152, .f32⟩
  | 53 => ⟨S2097152, .f32⟩
  | 54 => ⟨S2097152, .f32⟩
  | 55 => ⟨S2097152, .f32⟩
  | 56 => ⟨S2097152x1, .f32⟩
  | 57 => ⟨S2097152, .f32⟩
  | 58 => ⟨S2097152x1, .f32⟩
  | 59 => ⟨S2097152, .f32⟩
  | 60 => ⟨S2097152x1, .f32⟩
  | 61 => ⟨S2097152, .i32⟩
  | 62 => ⟨S_, .i32⟩
  | 63 => ⟨S_, .i32⟩
  | 64 => ⟨S_, .i32⟩
  | 65 => ⟨S2097152, .i32⟩
  | 66 => ⟨S2097152, .i32⟩
  | 67 => ⟨S_, .i32⟩
  | 68 => ⟨S2097152, .i32⟩
  | 69 => ⟨S2097152, .i32⟩
  | 70 => ⟨S2097152, .i32⟩
  | 71 => ⟨S_, .i32⟩
  | 72 => ⟨S_, .i32⟩
  | 73 => ⟨S_, .i32⟩
  | 74 => ⟨S2097152, .i32⟩
  | 75 => ⟨S2097152, .i32⟩
  | 76 => ⟨S_, .i32⟩
  | 77 => ⟨S2097152, .i32⟩
  | 78 => ⟨S2097152, .i32⟩
  | 79 => ⟨S2097152, .i32⟩
  | 80 => ⟨S_, .i32⟩
  | 81 => ⟨S_, .i32⟩
  | 82 => ⟨S_, .i32⟩
  | 83 => ⟨S2097152, .i32⟩
  | 84 => ⟨S2097152, .i32⟩
  | 85 => ⟨S_, .i32⟩
  | 86 => ⟨S2097152, .i32⟩
  | 87 => ⟨S2097152, .i32⟩
  | 88 => ⟨S_, .i32⟩
  | 89 => ⟨S2097152, .i32⟩
  | 90 => ⟨S2097152, .i32⟩
  | 91 => ⟨S_, .i32⟩
  | 92 => ⟨S_, .i32⟩
  | 93 => ⟨S_, .i32⟩
  | 94 => ⟨S2097152, .i32⟩
  | 95 => ⟨S2097152, .i32⟩
  | 96 => ⟨S_, .i32⟩
  | 97 => ⟨S2097152, .i32⟩
  | 98 => ⟨S2097152, .i32⟩
  | 99 => ⟨S_, .i32⟩
  | 100 => ⟨S2097152, .i32⟩
  | 101 => ⟨S2097152, .i32⟩
  | 102 => ⟨S_, .i32⟩
  | 103 => ⟨S_, .i32⟩
  | 104 => ⟨S_, .i32⟩
  | 105 => ⟨S2097152, .i32⟩
  | 106 => ⟨S2097152, .i32⟩
  | 107 => ⟨S_, .i32⟩
  | 108 => ⟨S2097152, .i32⟩
  | 109 => ⟨S2097152, .i32⟩
  | 110 => ⟨S_, .i32⟩
  | 111 => ⟨S2097152, .i32⟩
  | 112 => ⟨S2097152, .i32⟩
  | 113 => ⟨S_, .i32⟩
  | 114 => ⟨S_, .i32⟩
  | 115 => ⟨S_, .i32⟩
  | 116 => ⟨S2097152, .i32⟩
  | 117 => ⟨S2097152, .i32⟩
  | 118 => ⟨S_, .i32⟩
  | 119 => ⟨S2097152, .i32⟩
  | 120 => ⟨S2097152, .i32⟩
  | 121 => ⟨S160x160x160x12, .f32⟩
  | 122 => ⟨S4096000x12, .f32⟩
  | 123 => ⟨S_, .i32⟩
  | 124 => ⟨S2097152, .i32⟩
  | 125 => ⟨S2097152, .i32⟩
  | 126 => ⟨S_, .i32⟩
  | 127 => ⟨S2097152, .i32⟩
  | _ => ⟨S2097152x3, .f32⟩

abbrev hbmTy0_1 (i : Nat) : BufTy := match i % 128 with
  | 0 => ⟨S2097152, .i32⟩
  | 1 => ⟨S2097152, .i32⟩
  | 2 => ⟨S2097152, .i32⟩
  | 3 => ⟨S_, .i32⟩
  | 4 => ⟨S2097152, .i32⟩
  | 5 => ⟨S2097152, .i1⟩
  | 6 => ⟨S_, .i32⟩
  | 7 => ⟨S2097152, .i32⟩
  | 8 => ⟨S2097152, .i32⟩
  | 9 => ⟨S2097152, .i32⟩
  | 10 => ⟨S2097152x1, .i32⟩
  | 11 => ⟨S1, .i32⟩
  | 12 => ⟨S_, .i32⟩
  | 13 => ⟨S2097152x1, .i32⟩
  | 14 => ⟨S2097152x1, .i1⟩
  | 15 => ⟨S1x1, .i32⟩
  | 16 => ⟨S2097152x1, .i32⟩
  | 17 => ⟨S2097152x1, .i1⟩
  | 18 => ⟨S2097152x1, .i1⟩
  | 19 => ⟨S_, .i1⟩
  | 20 => ⟨S2097152, .i1⟩
  | 21 => ⟨S2097152x12, .f32⟩
  | 22 => ⟨S2097152x12, .i1⟩
  | 23 => ⟨S_, .f32⟩
  | 24 => ⟨S2097152x12, .f32⟩
  | 25 => ⟨S2097152x12, .f32⟩
  | 26 => ⟨S_, .i32⟩
  | 27 => ⟨S2097152, .i32⟩
  | 28 => ⟨S2097152, .i32⟩
  | 29 => ⟨S_, .i32⟩
  | 30 => ⟨S2097152, .i32⟩
  | 31 => ⟨S2097152, .i32⟩
  | 32 => ⟨S2097152, .i32⟩
  | 33 => ⟨S2097152, .i32⟩
  | 34 => ⟨S_, .i32⟩
  | 35 => ⟨S2097152, .i32⟩
  | 36 => ⟨S2097152, .i1⟩
  | 37 => ⟨S_, .i32⟩
  | 38 => ⟨S2097152, .i32⟩
  | 39 => ⟨S2097152, .i32⟩
  | 40 => ⟨S2097152, .i32⟩
  | 41 => ⟨S2097152x1, .i32⟩
  | 42 => ⟨S1, .i32⟩
  | 43 => ⟨S_, .i32⟩
  | 44 => ⟨S2097152x1, .i32⟩
  | 45 => ⟨S2097152x1, .i1⟩
  | 46 => ⟨S1x1, .i32⟩
  | 47 => ⟨S2097152x1, .i32⟩
  | 48 => ⟨S2097152x1, .i1⟩
  | 49 => ⟨S2097152x1, .i1⟩
  | 50 => ⟨S_, .i1⟩
  | 51 => ⟨S2097152, .i1⟩
  | 52 => ⟨S2097152x12, .f32⟩
  | 53 => ⟨S2097152x12, .i1⟩
  | 54 => ⟨S_, .f32⟩
  | 55 => ⟨S2097152x12, .f32⟩
  | 56 => ⟨S2097152x12, .f32⟩
  | 57 => ⟨S_, .i32⟩
  | 58 => ⟨S2097152, .i32⟩
  | 59 => ⟨S2097152, .i32⟩
  | 60 => ⟨S_, .i32⟩
  | 61 => ⟨S2097152, .i32⟩
  | 62 => ⟨S2097152, .i32⟩
  | 63 => ⟨S2097152, .i32⟩
  | 64 => ⟨S2097152, .i32⟩
  | 65 => ⟨S_, .i32⟩
  | 66 => ⟨S2097152, .i32⟩
  | 67 => ⟨S2097152, .i1⟩
  | 68 => ⟨S_, .i32⟩
  | 69 => ⟨S2097152, .i32⟩
  | 70 => ⟨S2097152, .i32⟩
  | 71 => ⟨S2097152, .i32⟩
  | 72 => ⟨S2097152x1, .i32⟩
  | 73 => ⟨S1, .i32⟩
  | 74 => ⟨S_, .i32⟩
  | 75 => ⟨S2097152x1, .i32⟩
  | 76 => ⟨S2097152x1, .i1⟩
  | 77 => ⟨S1x1, .i32⟩
  | 78 => ⟨S2097152x1, .i32⟩
  | 79 => ⟨S2097152x1, .i1⟩
  | 80 => ⟨S2097152x1, .i1⟩
  | 81 => ⟨S_, .i1⟩
  | 82 => ⟨S2097152, .i1⟩
  | 83 => ⟨S2097152x12, .f32⟩
  | 84 => ⟨S2097152x12, .i1⟩
  | 85 => ⟨S_, .f32⟩
  | 86 => ⟨S2097152x12, .f32⟩
  | 87 => ⟨S2097152x12, .f32⟩
  | 88 => ⟨S_, .i32⟩
  | 89 => ⟨S2097152, .i32⟩
  | 90 => ⟨S2097152, .i32⟩
  | 91 => ⟨S_, .i32⟩
  | 92 => ⟨S2097152, .i32⟩
  | 93 => ⟨S2097152, .i32⟩
  | 94 => ⟨S2097152, .i32⟩
  | 95 => ⟨S2097152, .i32⟩
  | 96 => ⟨S_, .i32⟩
  | 97 => ⟨S2097152, .i32⟩
  | 98 => ⟨S2097152, .i1⟩
  | 99 => ⟨S_, .i32⟩
  | 100 => ⟨S2097152, .i32⟩
  | 101 => ⟨S2097152, .i32⟩
  | 102 => ⟨S2097152, .i32⟩
  | 103 => ⟨S2097152x1, .i32⟩
  | 104 => ⟨S1, .i32⟩
  | 105 => ⟨S_, .i32⟩
  | 106 => ⟨S2097152x1, .i32⟩
  | 107 => ⟨S2097152x1, .i1⟩
  | 108 => ⟨S1x1, .i32⟩
  | 109 => ⟨S2097152x1, .i32⟩
  | 110 => ⟨S2097152x1, .i1⟩
  | 111 => ⟨S2097152x1, .i1⟩
  | 112 => ⟨S_, .i1⟩
  | 113 => ⟨S2097152, .i1⟩
  | 114 => ⟨S2097152x12, .f32⟩
  | 115 => ⟨S2097152x12, .i1⟩
  | 116 => ⟨S_, .f32⟩
  | 117 => ⟨S2097152x12, .f32⟩
  | 118 => ⟨S2097152x12, .f32⟩
  | 119 => ⟨S_, .i32⟩
  | 120 => ⟨S2097152, .i32⟩
  | 121 => ⟨S2097152, .i32⟩
  | 122 => ⟨S_, .i32⟩
  | 123 => ⟨S2097152, .i32⟩
  | 124 => ⟨S2097152, .i32⟩
  | 125 => ⟨S2097152, .i32⟩
  | 126 => ⟨S2097152, .i32⟩
  | 127 => ⟨S_, .i32⟩
  | _ => ⟨S2097152x3, .f32⟩

abbrev hbmTy0_2 (i : Nat) : BufTy := match i % 128 with
  | 0 => ⟨S2097152, .i32⟩
  | 1 => ⟨S2097152, .i1⟩
  | 2 => ⟨S_, .i32⟩
  | 3 => ⟨S2097152, .i32⟩
  | 4 => ⟨S2097152, .i32⟩
  | 5 => ⟨S2097152, .i32⟩
  | 6 => ⟨S2097152x1, .i32⟩
  | 7 => ⟨S1, .i32⟩
  | 8 => ⟨S_, .i32⟩
  | 9 => ⟨S2097152x1, .i32⟩
  | 10 => ⟨S2097152x1, .i1⟩
  | 11 => ⟨S1x1, .i32⟩
  | 12 => ⟨S2097152x1, .i32⟩
  | 13 => ⟨S2097152x1, .i1⟩
  | 14 => ⟨S2097152x1, .i1⟩
  | 15 => ⟨S_, .i1⟩
  | 16 => ⟨S2097152, .i1⟩
  | 17 => ⟨S2097152x12, .f32⟩
  | 18 => ⟨S2097152x12, .i1⟩
  | 19 => ⟨S_, .f32⟩
  | 20 => ⟨S2097152x12, .f32⟩
  | 21 => ⟨S2097152x12, .f32⟩
  | 22 => ⟨S_, .i32⟩
  | 23 => ⟨S2097152, .i32⟩
  | 24 => ⟨S2097152, .i32⟩
  | 25 => ⟨S_, .i32⟩
  | 26 => ⟨S2097152, .i32⟩
  | 27 => ⟨S2097152, .i32⟩
  | 28 => ⟨S2097152, .i32⟩
  | 29 => ⟨S2097152, .i32⟩
  | 30 => ⟨S_, .i32⟩
  | 31 => ⟨S2097152, .i32⟩
  | 32 => ⟨S2097152, .i1⟩
  | 33 => ⟨S_, .i32⟩
  | 34 => ⟨S2097152, .i32⟩
  | 35 => ⟨S2097152, .i32⟩
  | 36 => ⟨S2097152, .i32⟩
  | 37 => ⟨S2097152x1, .i32⟩
  | 38 => ⟨S1, .i32⟩
  | 39 => ⟨S_, .i32⟩
  | 40 => ⟨S2097152x1, .i32⟩
  | 41 => ⟨S2097152x1, .i1⟩
  | 42 => ⟨S1x1, .i32⟩
  | 43 => ⟨S2097152x1, .i32⟩
  | 44 => ⟨S2097152x1, .i1⟩
  | 45 => ⟨S2097152x1, .i1⟩
  | 46 => ⟨S_, .i1⟩
  | 47 => ⟨S2097152, .i1⟩
  | 48 => ⟨S2097152x12, .f32⟩
  | 49 => ⟨S2097152x12, .i1⟩
  | 50 => ⟨S_, .f32⟩
  | 51 => ⟨S2097152x12, .f32⟩
  | 52 => ⟨S2097152x12, .f32⟩
  | 53 => ⟨S_, .i32⟩
  | 54 => ⟨S2097152, .i32⟩
  | 55 => ⟨S2097152, .i32⟩
  | 56 => ⟨S_, .i32⟩
  | 57 => ⟨S2097152, .i32⟩
  | 58 => ⟨S2097152, .i32⟩
  | 59 => ⟨S2097152, .i32⟩
  | 60 => ⟨S2097152, .i32⟩
  | 61 => ⟨S_, .i32⟩
  | 62 => ⟨S2097152, .i32⟩
  | 63 => ⟨S2097152, .i1⟩
  | 64 => ⟨S_, .i32⟩
  | 65 => ⟨S2097152, .i32⟩
  | 66 => ⟨S2097152, .i32⟩
  | 67 => ⟨S2097152, .i32⟩
  | 68 => ⟨S2097152x1, .i32⟩
  | 69 => ⟨S1, .i32⟩
  | 70 => ⟨S_, .i32⟩
  | 71 => ⟨S2097152x1, .i32⟩
  | 72 => ⟨S2097152x1, .i1⟩
  | 73 => ⟨S1x1, .i32⟩
  | 74 => ⟨S2097152x1, .i32⟩
  | 75 => ⟨S2097152x1, .i1⟩
  | 76 => ⟨S2097152x1, .i1⟩
  | 77 => ⟨S_, .i1⟩
  | 78 => ⟨S2097152, .i1⟩
  | 79 => ⟨S2097152x12, .f32⟩
  | 80 => ⟨S2097152x12, .i1⟩
  | 81 => ⟨S_, .f32⟩
  | 82 => ⟨S2097152x12, .f32⟩
  | 83 => ⟨S2097152x12, .f32⟩
  | 84 => ⟨S_, .i32⟩
  | 85 => ⟨S2097152, .i32⟩
  | 86 => ⟨S2097152, .i32⟩
  | 87 => ⟨S_, .i32⟩
  | 88 => ⟨S2097152, .i32⟩
  | 89 => ⟨S2097152, .i32⟩
  | 90 => ⟨S2097152, .i32⟩
  | 91 => ⟨S2097152, .i32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S2097152x1, .i32⟩
  | 100 => ⟨S1, .i32⟩
  | 101 => ⟨S_, .i32⟩
  | 102 => ⟨S2097152x1, .i32⟩
  | 103 => ⟨S2097152x1, .i1⟩
  | 104 => ⟨S1x1, .i32⟩
  | 105 => ⟨S2097152x1, .i32⟩
  | 106 => ⟨S2097152x1, .i1⟩
  | 107 => ⟨S2097152x1, .i1⟩
  | 108 => ⟨S_, .i1⟩
  | 109 => ⟨S2097152, .i1⟩
  | 110 => ⟨S2097152x12, .f32⟩
  | 111 => ⟨S2097152x12, .i1⟩
  | 112 => ⟨S_, .f32⟩
  | 113 => ⟨S2097152x12, .f32⟩
  | 114 => ⟨S2097152x12, .f32⟩
  | 115 => ⟨S2097152x12, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | .local _ .vmem, ⟨0, _⟩ => ⟨S32768x1, .f32⟩
  | .local _ .vmem, ⟨1, _⟩ => ⟨S32768x1, .f32⟩
  | .local _ .vmem, ⟨2, _⟩ => ⟨S32768x1, .f32⟩
  | .local _ .vmem, ⟨3, _⟩ => ⟨S32768x1, .f32⟩
  | .local _ .vmem, ⟨4, _⟩ => ⟨S32768x1, .f32⟩
  | .local _ .vmem, ⟨5, _⟩ => ⟨S32768x1, .f32⟩
  | .local _ .vmem, ⟨6, _⟩ => ⟨S32768x12, .f32⟩
  | .local _ .vmem, ⟨7, _⟩ => ⟨S32768x12, .f32⟩
  | .local _ .vmem, ⟨8, _⟩ => ⟨S32768x12, .f32⟩
  | .local _ .vmem, ⟨9, _⟩ => ⟨S32768x12, .f32⟩
  | .local _ .vmem, ⟨10, _⟩ => ⟨S32768x12, .f32⟩
  | .local _ .vmem, ⟨11, _⟩ => ⟨S32768x12, .f32⟩
  | .local _ .vmem, ⟨12, _⟩ => ⟨S32768x12, .f32⟩
  | .local _ .vmem, ⟨13, _⟩ => ⟨S32768x12, .f32⟩
  | .local _ .vmem, ⟨14, _⟩ => ⟨S32768x12, .f32⟩
  | .local _ .vmem, ⟨15, _⟩ => ⟨S32768x12, .f32⟩
  | .local _ .vmem, ⟨16, _⟩ => ⟨S32768x12, .f32⟩
  | .local _ .vmem, ⟨17, _⟩ => ⟨S32768x12, .f32⟩
  | .local _ .vmem, ⟨18, _⟩ => ⟨S32768x12, .f32⟩
  | .local _ .vmem, ⟨19, _⟩ => ⟨S32768x12, .f32⟩
  | .local _ .vmem, ⟨20, _⟩ => ⟨S32768x12, .f32⟩
  | .local _ .vmem, ⟨21, _⟩ => ⟨S32768x12, .f32⟩
  | .local _ .vmem, ⟨22, _⟩ => ⟨S32768x12, .f32⟩
  | .local _ .vmem, ⟨23, _⟩ => ⟨S32768x12, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_c_10 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_c_12 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_c_14 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v51 : Ref sig .tc := ⟨.hbm, 87, rfl⟩
abbrev main_c_15 : Ref sig .tc := ⟨.hbm, 88, rfl⟩
abbrev main_v52 : Ref sig .tc := ⟨.hbm, 89, rfl⟩
abbrev main_v53 : Ref sig .tc := ⟨.hbm, 90, rfl⟩
abbrev main_c_16 : Ref sig .tc := ⟨.hbm, 91, rfl⟩
abbrev main_c_17 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v54 : Ref sig .tc := ⟨.hbm, 98, rfl⟩
abbrev main_c_18 : Ref sig .tc := ⟨.hbm, 99, rfl⟩
abbrev main_v55 : Ref sig .tc := ⟨.hbm, 100, rfl⟩
abbrev main_v56 : Ref sig .tc := ⟨.hbm, 101, rfl⟩
abbrev main_c_19 : Ref sig .tc := ⟨.hbm, 102, rfl⟩
abbrev main_c_20 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v57 : Ref sig .tc := ⟨.hbm, 109, rfl⟩
abbrev main_c_21 : Ref sig .tc := ⟨.hbm, 110, rfl⟩
abbrev main_v58 : Ref sig .tc := ⟨.hbm, 111, rfl⟩
abbrev main_v59 : Ref sig .tc := ⟨.hbm, 112, rfl⟩
abbrev main_c_22 : Ref sig .tc := ⟨.hbm, 113, rfl⟩
abbrev main_c_23 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_c_24 : Ref sig .tc := ⟨.hbm, 123, rfl⟩
abbrev main_v63 : Ref sig .tc := ⟨.hbm, 124, rfl⟩
abbrev main_v64 : Ref sig .tc := ⟨.hbm, 125, rfl⟩
abbrev main_c_25 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_call6_c : Ref sig .tc := ⟨.hbm, 131, rfl⟩
abbrev main_call6_v0 : Ref sig .tc := ⟨.hbm, 132, rfl⟩
abbrev main_call6_v1 : Ref sig .tc := ⟨.hbm, 133, rfl⟩
abbrev main_call6_c_0 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_c_1 : Ref sig .tc := ⟨.hbm, 139, rfl⟩
abbrev main_call6_c_2 : Ref sig .tc := ⟨.hbm, 140, rfl⟩
abbrev main_call6_v6 : Ref sig .tc := ⟨.hbm, 141, rfl⟩
abbrev main_call6_v7 : Ref sig .tc := ⟨.hbm, 142, rfl⟩
abbrev main_call6_v8 : Ref sig .tc := ⟨.hbm, 143, rfl⟩
abbrev main_call6_v9 : Ref sig .tc := ⟨.hbm, 144, rfl⟩
abbrev main_call6_v10 : Ref sig .tc := ⟨.hbm, 145, rfl⟩
abbrev main_call6_v11 : Ref sig .tc := ⟨.hbm, 146, rfl⟩
abbrev main_call6_c_3 : Ref sig .tc := ⟨.hbm, 147, rfl⟩
abbrev main_call6_v12 : Ref sig .tc := ⟨.hbm, 148, rfl⟩
abbrev main_call6_v13 : Ref sig .tc := ⟨.hbm, 149, rfl⟩
abbrev main_call6_v14 : Ref sig .tc := ⟨.hbm, 150, rfl⟩
abbrev main_call6_cst : Ref sig .tc := ⟨.hbm, 151, rfl⟩
abbrev main_call6_v15 : Ref sig .tc := ⟨.hbm, 152, rfl⟩
abbrev main_v69 : Ref sig .tc := ⟨.hbm, 153, rfl⟩
abbrev main_c_26 : Ref sig .tc := ⟨.hbm, 154, rfl⟩
abbrev main_v70 : Ref sig .tc := ⟨.hbm, 155, rfl⟩
abbrev main_v71 : Ref sig .tc := ⟨.hbm, 156, rfl⟩
abbrev main_c_27 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_call7_c : Ref sig .tc := ⟨.hbm, 162, rfl⟩
abbrev main_call7_v0 : Ref sig .tc := ⟨.hbm, 163, rfl⟩
abbrev main_call7_v1 : Ref sig .tc := ⟨.hbm, 164, rfl⟩
abbrev main_call7_c_0 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_call7_v5 : Ref sig .tc := ⟨.hbm, 169, rfl⟩
abbrev main_call7_c_1 : Ref sig .tc := ⟨.hbm, 170, rfl⟩
abbrev main_call7_c_2 : Ref sig .tc := ⟨.hbm, 171, rfl⟩
abbrev main_call7_v6 : Ref sig .tc := ⟨.hbm, 172, rfl⟩
abbrev main_call7_v7 : Ref sig .tc := ⟨.hbm, 173, rfl⟩
abbrev main_call7_v8 : Ref sig .tc := ⟨.hbm, 174, rfl⟩
abbrev main_call7_v9 : Ref sig .tc := ⟨.hbm, 175, rfl⟩
abbrev main_call7_v10 : Ref sig .tc := ⟨.hbm, 176, rfl⟩
abbrev main_call7_v11 : Ref sig .tc := ⟨.hbm, 177, rfl⟩
abbrev main_call7_c_3 : Ref sig .tc := ⟨.hbm, 178, rfl⟩
abbrev main_call7_v12 : Ref sig .tc := ⟨.hbm, 179, rfl⟩
abbrev main_call7_v13 : Ref sig .tc := ⟨.hbm, 180, rfl⟩
abbrev main_call7_v14 : Ref sig .tc := ⟨.hbm, 181, rfl⟩
abbrev main_call7_cst : Ref sig .tc := ⟨.hbm, 182, rfl⟩
abbrev main_call7_v15 : Ref sig .tc := ⟨.hbm, 183, rfl⟩
abbrev main_v76 : Ref sig .tc := ⟨.hbm, 184, rfl⟩
abbrev main_c_28 : Ref sig .tc := ⟨.hbm, 185, rfl⟩
abbrev main_v77 : Ref sig .tc := ⟨.hbm, 186, rfl⟩
abbrev main_v78 : Ref sig .tc := ⟨.hbm, 187, rfl⟩
abbrev main_c_29 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_call8_c : Ref sig .tc := ⟨.hbm, 193, rfl⟩
abbrev main_call8_v0 : Ref sig .tc := ⟨.hbm, 194, rfl⟩
abbrev main_call8_v1 : Ref sig .tc := ⟨.hbm, 195, rfl⟩
abbrev main_call8_c_0 : Ref sig .tc := ⟨.hbm, 196, rfl⟩
abbrev main_call8_v2 : Ref sig .tc := ⟨.hbm, 197, rfl⟩
abbrev main_call8_v3 : Ref sig .tc := ⟨.hbm, 198, rfl⟩
abbrev main_call8_v4 : Ref sig .tc := ⟨.hbm, 199, rfl⟩
abbrev main_call8_v5 : Ref sig .tc := ⟨.hbm, 200, rfl⟩
abbrev main_call8_c_1 : Ref sig .tc := ⟨.hbm, 201, rfl⟩
abbrev main_call8_c_2 : Ref sig .tc := ⟨.hbm, 202, rfl⟩
abbrev main_call8_v6 : Ref sig .tc := ⟨.hbm, 203, rfl⟩
abbrev main_call8_v7 : Ref sig .tc := ⟨.hbm, 204, rfl⟩
abbrev main_call8_v8 : Ref sig .tc := ⟨.hbm, 205, rfl⟩
abbrev main_call8_v9 : Ref sig .tc := ⟨.hbm, 206, rfl⟩
abbrev main_call8_v10 : Ref sig .tc := ⟨.hbm, 207, rfl⟩
abbrev main_call8_v11 : Ref sig .tc := ⟨.hbm, 208, rfl⟩
abbrev main_call8_c_3 : Ref sig .tc := ⟨.hbm, 209, rfl⟩
abbrev main_call8_v12 : Ref sig .tc := ⟨.hbm, 210, rfl⟩
abbrev main_call8_v13 : Ref sig .tc := ⟨.hbm, 211, rfl⟩
abbrev main_call8_v14 : Ref sig .tc := ⟨.hbm, 212, rfl⟩
abbrev main_call8_cst : Ref sig .tc := ⟨.hbm, 213, rfl⟩
abbrev main_call8_v15 : Ref sig .tc := ⟨.hbm, 214, rfl⟩
abbrev main_v83 : Ref sig .tc := ⟨.hbm, 215, rfl⟩
abbrev main_c_30 : Ref sig .tc := ⟨.hbm, 216, rfl⟩
abbrev main_v84 : Ref sig .tc := ⟨.hbm, 217, rfl⟩
abbrev main_v85 : Ref sig .tc := ⟨.hbm, 218, rfl⟩
abbrev main_c_31 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_call9_c : Ref sig .tc := ⟨.hbm, 224, rfl⟩
abbrev main_call9_v0 : Ref sig .tc := ⟨.hbm, 225, rfl⟩
abbrev main_call9_v1 : Ref sig .tc := ⟨.hbm, 226, rfl⟩
abbrev main_call9_c_0 : Ref sig .tc := ⟨.hbm, 227, rfl⟩
abbrev main_call9_v2 : Ref sig .tc := ⟨.hbm, 228, rfl⟩
abbrev main_call9_v3 : Ref sig .tc := ⟨.hbm, 229, rfl⟩
abbrev main_call9_v4 : Ref sig .tc := ⟨.hbm, 230, rfl⟩
abbrev main_call9_v5 : Ref sig .tc := ⟨.hbm, 231, rfl⟩
abbrev main_call9_c_1 : Ref sig .tc := ⟨.hbm, 232, rfl⟩
abbrev main_call9_c_2 : Ref sig .tc := ⟨.hbm, 233, rfl⟩
abbrev main_call9_v6 : Ref sig .tc := ⟨.hbm, 234, rfl⟩
abbrev main_call9_v7 : Ref sig .tc := ⟨.hbm, 235, rfl⟩
abbrev main_call9_v8 : Ref sig .tc := ⟨.hbm, 236, rfl⟩
abbrev main_call9_v9 : Ref sig .tc := ⟨.hbm, 237, rfl⟩
abbrev main_call9_v10 : Ref sig .tc := ⟨.hbm, 238, rfl⟩
abbrev main_call9_v11 : Ref sig .tc := ⟨.hbm, 239, rfl⟩
abbrev main_call9_c_3 : Ref sig .tc := ⟨.hbm, 240, rfl⟩
abbrev main_call9_v12 : Ref sig .tc := ⟨.hbm, 241, rfl⟩
abbrev main_call9_v13 : Ref sig .tc := ⟨.hbm, 242, rfl⟩
abbrev main_call9_v14 : Ref sig .tc := ⟨.hbm, 243, rfl⟩
abbrev main_call9_cst : Ref sig .tc := ⟨.hbm, 244, rfl⟩
abbrev main_call9_v15 : Ref sig .tc := ⟨.hbm, 245, rfl⟩
abbrev main_v90 : Ref sig .tc := ⟨.hbm, 246, rfl⟩
abbrev main_c_32 : Ref sig .tc := ⟨.hbm, 247, rfl⟩
abbrev main_v91 : Ref sig .tc := ⟨.hbm, 248, rfl⟩
abbrev main_v92 : Ref sig .tc := ⟨.hbm, 249, rfl⟩
abbrev main_c_33 : Ref sig .tc := ⟨.hbm, 250, rfl⟩
abbrev main_v93 : Ref sig .tc := ⟨.hbm, 251, rfl⟩
abbrev main_v94 : Ref sig .tc := ⟨.hbm, 252, rfl⟩
abbrev main_v95 : Ref sig .tc := ⟨.hbm, 253, rfl⟩
abbrev main_v96 : Ref sig .tc := ⟨.hbm, 254, rfl⟩
abbrev main_call10_c : Ref sig .tc := ⟨.hbm, 255, rfl⟩
abbrev main_call10_v0 : Ref sig .tc := ⟨.hbm, 256, rfl⟩
abbrev main_call10_v1 : Ref sig .tc := ⟨.hbm, 257, rfl⟩
abbrev main_call10_c_0 : Ref sig .tc := ⟨.hbm, 258, rfl⟩
abbrev main_call10_v2 : Ref sig .tc := ⟨.hbm, 259, rfl⟩
abbrev main_call10_v3 : Ref sig .tc := ⟨.hbm, 260, rfl⟩
abbrev main_call10_v4 : Ref sig .tc := ⟨.hbm, 261, rfl⟩
abbrev main_call10_v5 : Ref sig .tc := ⟨.hbm, 262, rfl⟩
abbrev main_call10_c_1 : Ref sig .tc := ⟨.hbm, 263, rfl⟩
abbrev main_call10_c_2 : Ref sig .tc := ⟨.hbm, 264, rfl⟩
abbrev main_call10_v6 : Ref sig .tc := ⟨.hbm, 265, rfl⟩
abbrev main_call10_v7 : Ref sig .tc := ⟨.hbm, 266, rfl⟩
abbrev main_call10_v8 : Ref sig .tc := ⟨.hbm, 267, rfl⟩
abbrev main_call10_v9 : Ref sig .tc := ⟨.hbm, 268, rfl⟩
abbrev main_call10_v10 : Ref sig .tc := ⟨.hbm, 269, rfl⟩
abbrev main_call10_v11 : Ref sig .tc := ⟨.hbm, 270, rfl⟩
abbrev main_call10_c_3 : Ref sig .tc := ⟨.hbm, 271, rfl⟩
abbrev main_call10_v12 : Ref sig .tc := ⟨.hbm, 272, rfl⟩
abbrev main_call10_v13 : Ref sig .tc := ⟨.hbm, 273, rfl⟩
abbrev main_call10_v14 : Ref sig .tc := ⟨.hbm, 274, rfl⟩
abbrev main_call10_cst : Ref sig .tc := ⟨.hbm, 275, rfl⟩
abbrev main_call10_v15 : Ref sig .tc := ⟨.hbm, 276, rfl⟩
abbrev main_v97 : Ref sig .tc := ⟨.hbm, 277, rfl⟩
abbrev main_c_34 : Ref sig .tc := ⟨.hbm, 278, rfl⟩
abbrev main_v98 : Ref sig .tc := ⟨.hbm, 279, rfl⟩
abbrev main_v99 : Ref sig .tc := ⟨.hbm, 280, rfl⟩
abbrev main_c_35 : Ref sig .tc := ⟨.hbm, 281, rfl⟩
abbrev main_v100 : Ref sig .tc := ⟨.hbm, 282, rfl⟩
abbrev main_v101 : Ref sig .tc := ⟨.hbm, 283, rfl⟩
abbrev main_v102 : Ref sig .tc := ⟨.hbm, 284, rfl⟩
abbrev main_v103 : Ref sig .tc := ⟨.hbm, 285, rfl⟩
abbrev main_call11_c : Ref sig .tc := ⟨.hbm, 286, rfl⟩
abbrev main_call11_v0 : Ref sig .tc := ⟨.hbm, 287, rfl⟩
abbrev main_call11_v1 : Ref sig .tc := ⟨.hbm, 288, rfl⟩
abbrev main_call11_c_0 : Ref sig .tc := ⟨.hbm, 289, rfl⟩
abbrev main_call11_v2 : Ref sig .tc := ⟨.hbm, 290, rfl⟩
abbrev main_call11_v3 : Ref sig .tc := ⟨.hbm, 291, rfl⟩
abbrev main_call11_v4 : Ref sig .tc := ⟨.hbm, 292, rfl⟩
abbrev main_call11_v5 : Ref sig .tc := ⟨.hbm, 293, rfl⟩
abbrev main_call11_c_1 : Ref sig .tc := ⟨.hbm, 294, rfl⟩
abbrev main_call11_c_2 : Ref sig .tc := ⟨.hbm, 295, rfl⟩
abbrev main_call11_v6 : Ref sig .tc := ⟨.hbm, 296, rfl⟩
abbrev main_call11_v7 : Ref sig .tc := ⟨.hbm, 297, rfl⟩
abbrev main_call11_v8 : Ref sig .tc := ⟨.hbm, 298, rfl⟩
abbrev main_call11_v9 : Ref sig .tc := ⟨.hbm, 299, rfl⟩
abbrev main_call11_v10 : Ref sig .tc := ⟨.hbm, 300, rfl⟩
abbrev main_call11_v11 : Ref sig .tc := ⟨.hbm, 301, rfl⟩
abbrev main_call11_c_3 : Ref sig .tc := ⟨.hbm, 302, rfl⟩
abbrev main_call11_v12 : Ref sig .tc := ⟨.hbm, 303, rfl⟩
abbrev main_call11_v13 : Ref sig .tc := ⟨.hbm, 304, rfl⟩
abbrev main_call11_v14 : Ref sig .tc := ⟨.hbm, 305, rfl⟩
abbrev main_call11_cst : Ref sig .tc := ⟨.hbm, 306, rfl⟩
abbrev main_call11_v15 : Ref sig .tc := ⟨.hbm, 307, rfl⟩
abbrev main_v104 : Ref sig .tc := ⟨.hbm, 308, rfl⟩
abbrev main_c_36 : Ref sig .tc := ⟨.hbm, 309, rfl⟩
abbrev main_v105 : Ref sig .tc := ⟨.hbm, 310, rfl⟩
abbrev main_v106 : Ref sig .tc := ⟨.hbm, 311, rfl⟩
abbrev main_c_37 : Ref sig .tc := ⟨.hbm, 312, rfl⟩
abbrev main_v107 : Ref sig .tc := ⟨.hbm, 313, rfl⟩
abbrev main_v108 : Ref sig .tc := ⟨.hbm, 314, rfl⟩
abbrev main_v109 : Ref sig .tc := ⟨.hbm, 315, rfl⟩
abbrev main_v110 : Ref sig .tc := ⟨.hbm, 316, rfl⟩
abbrev main_call12_c : Ref sig .tc := ⟨.hbm, 317, rfl⟩
abbrev main_call12_v0 : Ref sig .tc := ⟨.hbm, 318, rfl⟩
abbrev main_call12_v1 : Ref sig .tc := ⟨.hbm, 319, rfl⟩
abbrev main_call12_c_0 : Ref sig .tc := ⟨.hbm, 320, rfl⟩
abbrev main_call12_v2 : Ref sig .tc := ⟨.hbm, 321, rfl⟩
abbrev main_call12_v3 : Ref sig .tc := ⟨.hbm, 322, rfl⟩
abbrev main_call12_v4 : Ref sig .tc := ⟨.hbm, 323, rfl⟩
abbrev main_call12_v5 : Ref sig .tc := ⟨.hbm, 324, rfl⟩
abbrev main_call12_c_1 : Ref sig .tc := ⟨.hbm, 325, rfl⟩
abbrev main_call12_c_2 : Ref sig .tc := ⟨.hbm, 326, rfl⟩
abbrev main_call12_v6 : Ref sig .tc := ⟨.hbm, 327, rfl⟩
abbrev main_call12_v7 : Ref sig .tc := ⟨.hbm, 328, rfl⟩
abbrev main_call12_v8 : Ref sig .tc := ⟨.hbm, 329, rfl⟩
abbrev main_call12_v9 : Ref sig .tc := ⟨.hbm, 330, rfl⟩
abbrev main_call12_v10 : Ref sig .tc := ⟨.hbm, 331, rfl⟩
abbrev main_call12_v11 : Ref sig .tc := ⟨.hbm, 332, rfl⟩
abbrev main_call12_c_3 : Ref sig .tc := ⟨.hbm, 333, rfl⟩
abbrev main_call12_v12 : Ref sig .tc := ⟨.hbm, 334, rfl⟩
abbrev main_call12_v13 : Ref sig .tc := ⟨.hbm, 335, rfl⟩
abbrev main_call12_v14 : Ref sig .tc := ⟨.hbm, 336, rfl⟩
abbrev main_call12_cst : Ref sig .tc := ⟨.hbm, 337, rfl⟩
abbrev main_call12_v15 : Ref sig .tc := ⟨.hbm, 338, rfl⟩
abbrev main_v111 : Ref sig .tc := ⟨.hbm, 339, rfl⟩
abbrev main_c_38 : Ref sig .tc := ⟨.hbm, 340, rfl⟩
abbrev main_v112 : Ref sig .tc := ⟨.hbm, 341, rfl⟩
abbrev main_v113 : Ref sig .tc := ⟨.hbm, 342, rfl⟩
abbrev main_c_39 : Ref sig .tc := ⟨.hbm, 343, rfl⟩
abbrev main_v114 : Ref sig .tc := ⟨.hbm, 344, rfl⟩
abbrev main_v115 : Ref sig .tc := ⟨.hbm, 345, rfl⟩
abbrev main_v116 : Ref sig .tc := ⟨.hbm, 346, rfl⟩
abbrev main_v117 : Ref sig .tc := ⟨.hbm, 347, rfl⟩
abbrev main_call13_c : Ref sig .tc := ⟨.hbm, 348, rfl⟩
abbrev main_call13_v0 : Ref sig .tc := ⟨.hbm, 349, rfl⟩
abbrev main_call13_v1 : Ref sig .tc := ⟨.hbm, 350, rfl⟩
abbrev main_call13_c_0 : Ref sig .tc := ⟨.hbm, 351, rfl⟩
abbrev main_call13_v2 : Ref sig .tc := ⟨.hbm, 352, rfl⟩
abbrev main_call13_v3 : Ref sig .tc := ⟨.hbm, 353, rfl⟩
abbrev main_call13_v4 : Ref sig .tc := ⟨.hbm, 354, rfl⟩
abbrev main_call13_v5 : Ref sig .tc := ⟨.hbm, 355, rfl⟩
abbrev main_call13_c_1 : Ref sig .tc := ⟨.hbm, 356, rfl⟩
abbrev main_call13_c_2 : Ref sig .tc := ⟨.hbm, 357, rfl⟩
abbrev main_call13_v6 : Ref sig .tc := ⟨.hbm, 358, rfl⟩
abbrev main_call13_v7 : Ref sig .tc := ⟨.hbm, 359, rfl⟩
abbrev main_call13_v8 : Ref sig .tc := ⟨.hbm, 360, rfl⟩
abbrev main_call13_v9 : Ref sig .tc := ⟨.hbm, 361, rfl⟩
abbrev main_call13_v10 : Ref sig .tc := ⟨.hbm, 362, rfl⟩
abbrev main_call13_v11 : Ref sig .tc := ⟨.hbm, 363, rfl⟩
abbrev main_call13_c_3 : Ref sig .tc := ⟨.hbm, 364, rfl⟩
abbrev main_call13_v12 : Ref sig .tc := ⟨.hbm, 365, rfl⟩
abbrev main_call13_v13 : Ref sig .tc := ⟨.hbm, 366, rfl⟩
abbrev main_call13_v14 : Ref sig .tc := ⟨.hbm, 367, rfl⟩
abbrev main_call13_cst : Ref sig .tc := ⟨.hbm, 368, rfl⟩
abbrev main_call13_v15 : Ref sig .tc := ⟨.hbm, 369, rfl⟩
abbrev main_v118 : Ref sig .tc := ⟨.hbm, 370, rfl⟩
abbrev main_v119 : Ref sig .tc := ⟨.hbm, 371, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32768x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32768x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32768x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32768x12 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32768x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32768x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32768x12 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32768x12 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32768x12 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32768x12 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1x12x160x160x160_S12x160x160x160 : S1x12x160x160x160.ShapeCasts S12x160x160x160
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  shapeCasts_S2097152_S2097152x1 : S2097152.ShapeCasts S2097152x1
  transposes_S12x160x160x160_S160x160x160x12_1_2_3_0 : S12x160x160x160.Transposes [1, 2, 3, 0] S160x160x160x12
  shapeCasts_S160x160x160x12_S4096000x12 : S160x160x160x12.ShapeCasts S4096000x12
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  h_S_ : 0 < S_.numel
  bcast_S2097152_S2097152x12_0 : S2097152.BroadcastsInDim S2097152x12 (![0] : Fin 1 → Fin S2097152x12.rank)
  bcast_S_S2097152x12 : S_.BroadcastsInDim S2097152x12 (![] : Fin 0 → Fin S2097152x12.rank)
  inb_S32768x1_S32768x1_0_0 : ∀ a, (![0, 0] : Fin 2 → Nat) a + S32768x1.size a ≤ S32768x1.size a
  h_S32768x1 : 0 < S32768x1.numel
  shapeCasts_S32768x1_S32768x1 : S32768x1.ShapeCasts S32768x1
  inb_S32768x12_S32768x12_0_0 : ∀ a, (![0, 0] : Fin 2 → Nat) a + S32768x12.size a ≤ S32768x12.size a
  h_S32768x12 : 0 < S32768x12.numel
  shapeCasts_S32768x12_S32768x12 : S32768x12.ShapeCasts S32768x12
  broadcasts_S32768x1_S32768x12 : S32768x1.Broadcasts S32768x12
  gather_S4096000x12_S2097152x1_S2097152x12_1_0_n_n_0_1_112_wf : GatherDims.WF S4096000x12 S2097152x1 S2097152x12 [1] [0] [] [0] [] 1 ![1, 12]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x1.size a ≤ S2097152x1.size a
  hwx0_0 : ∀ i : grid0.Coords, EltTy.bits .f32 = 32 ∨ (Rect.block (s := S2097152x1) S32768x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768x1.size a ≤ S2097152x1.size a
  hwx0_1 : ∀ i : grid0.Coords, EltTy.bits .f32 = 32 ∨ (Rect.block (s := S2097152x1) S32768x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32768x1.size a ≤ S2097152x1.size a
  hwx0_2 : ∀ i : grid0.Coords, EltTy.bits .f32 = 32 ∨ (Rect.block (s := S2097152x1) S32768x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32768x12.size a ≤ S2097152x12.size a
  hwx0_3 : ∀ i : grid0.Coords, EltTy.bits .f32 = 32 ∨ (Rect.block (s := S2097152x12) S32768x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32768x12.size a ≤ S2097152x12.size a
  hwx0_4 : ∀ i : grid0.Coords, EltTy.bits .f32 = 32 ∨ (Rect.block (s := S2097152x12) S32768x12.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32768x12.size a ≤ S2097152x12.size a
  hwx0_5 : ∀ i : grid0.Coords, EltTy.bits .f32 = 32 ∨ (Rect.block (s := S2097152x12) S32768x12.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32768x12.size a ≤ S2097152x12.size a
  hwx0_6 : ∀ i : grid0.Coords, EltTy.bits .f32 = 32 ∨ (Rect.block (s := S2097152x12) S32768x12.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32768x12.size a ≤ S2097152x12.size a
  hwx0_7 : ∀ i : grid0.Coords, EltTy.bits .f32 = 32 ∨ (Rect.block (s := S2097152x12) S32768x12.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32768x12.size a ≤ S2097152x12.size a
  hwx0_8 : ∀ i : grid0.Coords, EltTy.bits .f32 = 32 ∨ (Rect.block (s := S2097152x12) S32768x12.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32768x12.size a ≤ S2097152x12.size a
  hwx0_9 : ∀ i : grid0.Coords, EltTy.bits .f32 = 32 ∨ (Rect.block (s := S2097152x12) S32768x12.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32768x12.size a ≤ S2097152x12.size a
  hwx0_10 : ∀ i : grid0.Coords, EltTy.bits .f32 = 32 ∨ (Rect.block (s := S2097152x12) S32768x12.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32768x12.size a ≤ S2097152x12.size a
  hwx0_11 : ∀ i : grid0.Coords, EltTy.bits .f32 = 32 ∨ (Rect.block (s := S2097152x12) S32768x12.size (cc0_transform_11 i) (hinb0_11 i)).WholeWords (EltTy.packing .f32)

variable [Facts₀]

def gather_S4096000x12_S2097152x1_S2097152x12_1_0_n_n_0_1_112 : GatherDims S4096000x12 S2097152x1 S2097152x12 where
  offsetDims := [1]
  collapsedSliceDims := [0]
  operandBatchingDims := []
  startIndicesBatchingDims := []
  startIndexMap := [0]
  indexVectorDim := 1
  sliceSizes := ![1, 12]
  wf := gather_S4096000x12_S2097152x1_S2097152x12_1_0_n_n_0_1_112_wf

abbrev win0_0 : Pipeline.Window sig grid0 :=
  Pipeline.Window.ofSpec (Memref.whole main_v41) S32768x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S32768x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S32768x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v69) S32768x12.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v76) S32768x12.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v83) S32768x12.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v90) S32768x12.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v97) S32768x12.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v104) S32768x12.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v111) S32768x12.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v118) S32768x12.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v119) S32768x12.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S1x12x160x160x160 : Shape := ⟨5, ![1, 12, 160, 160, 160]⟩
abbrev S3 : Shape := ⟨1, ![3]⟩
abbrev S12x160x160x160 : Shape := ⟨4, ![12, 160, 160, 160]⟩
abbrev S1x3 : Shape := ⟨2, ![1, 3]⟩
abbrev S_ : Shape := ⟨0, ![]⟩
abbrev S2097152x1 : Shape := ⟨2, ![2097152, 1]⟩
abbrev S2097152 : Shape := ⟨1, ![2097152]⟩
abbrev S12x2097152 : Shape := ⟨2, ![12, 2097152]⟩
abbrev S1x2097152 : Shape := ⟨2, ![1, 2097152]⟩
abbrev S2097152x12 : Shape := ⟨2, ![2097152, 12]⟩

abbrev nBuf : Space → Nat
  | .hbm => 383
  | .vmem => 0
  | .smem => 0
  | _ => 0

abbrev hbmTy0_0 (i : Nat) : BufTy := match i % 128 with
  | 0 => ⟨S2097152x3, .f32⟩
  | 1 => ⟨S1x12x160x160x160, .f32⟩
  | 2 => ⟨S3, .f32⟩
  | 3 => ⟨S3, .f32⟩
  | 4 => ⟨S12x160x160x160, .f32⟩
  | 5 => ⟨S1x3, .f32⟩
  | 6 => ⟨S2097152x3, .f32⟩
  | 7 => ⟨S2097152x3, .f32⟩
  | 8 => ⟨S3, .f32⟩
  | 9 => ⟨S1x3, .f32⟩
  | 10 => ⟨S2097152x3, .f32⟩
  | 11 => ⟨S2097152x3, .f32⟩
  | 12 => ⟨S2097152x3, .f32⟩
  | 13 => ⟨S_, .f32⟩
  | 14 => ⟨S2097152x3, .f32⟩
  | 15 => ⟨S2097152x3, .f32⟩
  | 16 => ⟨S_, .f32⟩
  | 17 => ⟨S2097152x3, .f32⟩
  | 18 => ⟨S2097152x3, .f32⟩
  | 19 => ⟨S2097152x1, .f32⟩
  | 20 => ⟨S2097152, .f32⟩
  | 21 => ⟨S2097152x1, .f32⟩
  | 22 => ⟨S2097152, .f32⟩
  | 23 => ⟨S2097152x1, .f32⟩
  | 24 => ⟨S2097152, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S2097152, .f32⟩
  | 36 => ⟨S2097152, .f32⟩
  | 37 => ⟨S_, .f32⟩
  | 38 => ⟨S2097152, .f32⟩
  | 39 => ⟨S2097152, .f32⟩
  | 40 => ⟨S_, .f32⟩
  | 41 => ⟨S2097152, .f32⟩
  | 42 => ⟨S2097152, .f32⟩
  | 43 => ⟨S_, .f32⟩
  | 44 => ⟨S2097152, .f32⟩
  | 45 => ⟨S2097152, .f32⟩
  | 46 => ⟨S_, .f32⟩
  | 47 => ⟨S2097152, .f32⟩
  | 48 => ⟨S2097152, .f32⟩
  | 49 => ⟨S_, .f32⟩
  | 50 => ⟨S2097152, .f32⟩
  | 51 => ⟨S2097152, .f32⟩
  | 52 => ⟨S2097152, .f32⟩
  | 53 => ⟨S2097152, .f32⟩
  | 54 => ⟨S2097152, .f32⟩
  | 55 => ⟨S2097152, .f32⟩
  | 56 => ⟨S2097152, .f32⟩
  | 57 => ⟨S2097152, .f32⟩
  | 58 => ⟨S2097152, .i32⟩
  | 59 => ⟨S_, .i32⟩
  | 60 => ⟨S_, .i32⟩
  | 61 => ⟨S_, .i32⟩
  | 62 => ⟨S2097152, .i32⟩
  | 63 => ⟨S2097152, .i32⟩
  | 64 => ⟨S_, .i32⟩
  | 65 => ⟨S2097152, .i32⟩
  | 66 => ⟨S2097152, .i32⟩
  | 67 => ⟨S2097152, .i32⟩
  | 68 => ⟨S_, .i32⟩
  | 69 => ⟨S_, .i32⟩
  | 70 => ⟨S_, .i32⟩
  | 71 => ⟨S2097152, .i32⟩
  | 72 => ⟨S2097152, .i32⟩
  | 73 => ⟨S_, .i32⟩
  | 74 => ⟨S2097152, .i32⟩
  | 75 => ⟨S2097152, .i32⟩
  | 76 => ⟨S2097152, .i32⟩
  | 77 => ⟨S_, .i32⟩
  | 78 => ⟨S_, .i32⟩
  | 79 => ⟨S_, .i32⟩
  | 80 => ⟨S2097152, .i32⟩
  | 81 => ⟨S2097152, .i32⟩
  | 82 => ⟨S_, .i32⟩
  | 83 => ⟨S2097152, .i32⟩
  | 84 => ⟨S2097152, .i32⟩
  | 85 => ⟨S_, .i32⟩
  | 86 => ⟨S2097152, .i32⟩
  | 87 => ⟨S2097152, .i32⟩
  | 88 => ⟨S_, .i32⟩
  | 89 => ⟨S_, .i32⟩
  | 90 => ⟨S_, .i32⟩
  | 91 => ⟨S2097152, .i32⟩
  | 92 => ⟨S2097152, .i32⟩
  | 93 => ⟨S_, .i32⟩
  | 94 => ⟨S2097152, .i32⟩
  | 95 => ⟨S2097152, .i32⟩
  | 96 => ⟨S_, .i32⟩
  | 97 => ⟨S2097152, .i32⟩
  | 98 => ⟨S2097152, .i32⟩
  | 99 => ⟨S_, .i32⟩
  | 100 => ⟨S_, .i32⟩
  | 101 => ⟨S_, .i32⟩
  | 102 => ⟨S2097152, .i32⟩
  | 103 => ⟨S2097152, .i32⟩
  | 104 => ⟨S_, .i32⟩
  | 105 => ⟨S2097152, .i32⟩
  | 106 => ⟨S2097152, .i32⟩
  | 107 => ⟨S_, .i32⟩
  | 108 => ⟨S2097152, .i32⟩
  | 109 => ⟨S2097152, .i32⟩
  | 110 => ⟨S_, .i32⟩
  | 111 => ⟨S_, .i32⟩
  | 112 => ⟨S_, .i32⟩
  | 113 => ⟨S2097152, .i32⟩
  | 114 => ⟨S2097152, .i32⟩
  | 115 => ⟨S_, .i32⟩
  | 116 => ⟨S2097152, .i32⟩
  | 117 => ⟨S2097152, .i32⟩
  | 118 => ⟨S_, .f32⟩
  | 119 => ⟨S2097152, .f32⟩
  | 120 => ⟨S2097152, .f32⟩
  | 121 => ⟨S_, .f32⟩
  | 122 => ⟨S2097152, .f32⟩
  | 123 => ⟨S2097152, .f32⟩
  | 124 => ⟨S_, .f32⟩
  | 125 => ⟨S2097152, .f32⟩
  | 126 => ⟨S2097152, .f32⟩
  | 127 => ⟨S_, .i32⟩
  | _ => ⟨S2097152x3, .f32⟩

abbrev hbmTy0_1 (i : Nat) : BufTy := match i % 128 with
  | 0 => ⟨S2097152, .i32⟩
  | 1 => ⟨S2097152, .i1⟩
  | 2 => ⟨S_, .i32⟩
  | 3 => ⟨S2097152, .i32⟩
  | 4 => ⟨S2097152, .i32⟩
  | 5 => ⟨S2097152, .i32⟩
  | 6 => ⟨S_, .i32⟩
  | 7 => ⟨S2097152, .i32⟩
  | 8 => ⟨S2097152, .i1⟩
  | 9 => ⟨S_, .i32⟩
  | 10 => ⟨S2097152, .i32⟩
  | 11 => ⟨S2097152, .i32⟩
  | 12 => ⟨S2097152, .i32⟩
  | 13 => ⟨S_, .i32⟩
  | 14 => ⟨S2097152, .i32⟩
  | 15 => ⟨S2097152, .i1⟩
  | 16 => ⟨S_, .i32⟩
  | 17 => ⟨S2097152, .i32⟩
  | 18 => ⟨S2097152, .i32⟩
  | 19 => ⟨S2097152, .i32⟩
  | 20 => ⟨S2097152x1, .i32⟩
  | 21 => ⟨S2097152x1, .i32⟩
  | 22 => ⟨S2097152x1, .i32⟩
  | 23 => ⟨S2097152x3, .i32⟩
  | 24 => ⟨S12x2097152, .f32⟩
  | 25 => ⟨S2097152, .f32⟩
  | 26 => ⟨S2097152, .f32⟩
  | 27 => ⟨S1x2097152, .f32⟩
  | 28 => ⟨S12x2097152, .f32⟩
  | 29 => ⟨S12x2097152, .f32⟩
  | 30 => ⟨S_, .i32⟩
  | 31 => ⟨S2097152, .i32⟩
  | 32 => ⟨S2097152, .i1⟩
  | 33 => ⟨S_, .i32⟩
  | 34 => ⟨S2097152, .i32⟩
  | 35 => ⟨S2097152, .i32⟩
  | 36 => ⟨S2097152, .i32⟩
  | 37 => ⟨S_, .i32⟩
  | 38 => ⟨S2097152, .i32⟩
  | 39 => ⟨S2097152, .i1⟩
  | 40 => ⟨S_, .i32⟩
  | 41 => ⟨S2097152, .i32⟩
  | 42 => ⟨S2097152, .i32⟩
  | 43 => ⟨S2097152, .i32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S2097152x1, .i32⟩
  | 52 => ⟨S2097152x1, .i32⟩
  | 53 => ⟨S2097152x1, .i32⟩
  | 54 => ⟨S2097152x3, .i32⟩
  | 55 => ⟨S12x2097152, .f32⟩
  | 56 => ⟨S2097152, .f32⟩
  | 57 => ⟨S2097152, .f32⟩
  | 58 => ⟨S1x2097152, .f32⟩
  | 59 => ⟨S12x2097152, .f32⟩
  | 60 => ⟨S12x2097152, .f32⟩
  | 61 => ⟨S12x2097152, .f32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S2097152x1, .i32⟩
  | 84 => ⟨S2097152x1, .i32⟩
  | 85 => ⟨S2097152x1, .i32⟩
  | 86 => ⟨S2097152x3, .i32⟩
  | 87 => ⟨S12x2097152, .f32⟩
  | 88 => ⟨S2097152, .f32⟩
  | 89 => ⟨S2097152, .f32⟩
  | 90 => ⟨S1x2097152, .f32⟩
  | 91 => ⟨S12x2097152, .f32⟩
  | 92 => ⟨S12x2097152, .f32⟩
  | 93 => ⟨S12x2097152, .f32⟩
  | 94 => ⟨S_, .i32⟩
  | 95 => ⟨S2097152, .i32⟩
  | 96 => ⟨S2097152, .i1⟩
  | 97 => ⟨S_, .i32⟩
  | 98 => ⟨S2097152, .i32⟩
  | 99 => ⟨S2097152, .i32⟩
  | 100 => ⟨S2097152, .i32⟩
  | 101 => ⟨S_, .i32⟩
  | 102 => ⟨S2097152, .i32⟩
  | 103 => ⟨S2097152, .i1⟩
  | 104 => ⟨S_, .i32⟩
  | 105 => ⟨S2097152, .i32⟩
  | 106 => ⟨S2097152, .i32⟩
  | 107 => ⟨S2097152, .i32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S2097152x1, .i32⟩
  | 116 => ⟨S2097152x1, .i32⟩
  | 117 => ⟨S2097152x1, .i32⟩
  | 118 => ⟨S2097152x3, .i32⟩
  | 119 => ⟨S12x2097152, .f32⟩
  | 120 => ⟨S2097152, .f32⟩
  | 121 => ⟨S2097152, .f32⟩
  | 122 => ⟨S1x2097152, .f32⟩
  | 123 => ⟨S12x2097152, .f32⟩
  | 124 => ⟨S12x2097152, .f32⟩
  | 125 => ⟨S12x2097152, .f32⟩
  | 126 => ⟨S_, .i32⟩
  | 127 => ⟨S2097152, .i32⟩
  | _ => ⟨S2097152x3, .f32⟩

abbrev hbmTy0_2 (i : Nat) : BufTy := match i % 128 with
  | 0 => ⟨S2097152, .i1⟩
  | 1 => ⟨S_, .i32⟩
  | 2 => ⟨S2097152, .i32⟩
  | 3 => ⟨S2097152, .i32⟩
  | 4 => ⟨S2097152, .i32⟩
  | 5 => ⟨S_, .i32⟩
  | 6 => ⟨S2097152, .i32⟩
  | 7 => ⟨S2097152, .i1⟩
  | 8 => ⟨S_, .i32⟩
  | 9 => ⟨S2097152, .i32⟩
  | 10 => ⟨S2097152, .i32⟩
  | 11 => ⟨S2097152, .i32⟩
  | 12 => ⟨S_, .i32⟩
  | 13 => ⟨S2097152, .i32⟩
  | 14 => ⟨S2097152, .i1⟩
  | 15 => ⟨S_, .i32⟩
  | 16 => ⟨S2097152, .i32⟩
  | 17 => ⟨S2097152, .i32⟩
  | 18 => ⟨S2097152, .i32⟩
  | 19 => ⟨S2097152x1, .i32⟩
  | 20 => ⟨S2097152x1, .i32⟩
  | 21 => ⟨S2097152x1, .i32⟩
  | 22 => ⟨S2097152x3, .i32⟩
  | 23 => ⟨S12x2097152, .f32⟩
  | 24 => ⟨S2097152, .f32⟩
  | 25 => ⟨S2097152, .f32⟩
  | 26 => ⟨S1x2097152, .f32⟩
  | 27 => ⟨S12x2097152, .f32⟩
  | 28 => ⟨S12x2097152, .f32⟩
  | 29 => ⟨S12x2097152, .f32⟩
  | 30 => ⟨S_, .i32⟩
  | 31 => ⟨S2097152, .i32⟩
  | 32 => ⟨S2097152, .i1⟩
  | 33 => ⟨S_, .i32⟩
  | 34 => ⟨S2097152, .i32⟩
  | 35 => ⟨S2097152, .i32⟩
  | 36 => ⟨S2097152, .i32⟩
  | 37 => ⟨S_, .i32⟩
  | 38 => ⟨S2097152, .i32⟩
  | 39 => ⟨S2097152, .i1⟩
  | 40 => ⟨S_, .i32⟩
  | 41 => ⟨S2097152, .i32⟩
  | 42 => ⟨S2097152, .i32⟩
  | 43 => ⟨S2097152, .i32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S2097152x1, .i32⟩
  | 52 => ⟨S2097152x1, .i32⟩
  | 53 => ⟨S2097152x1, .i32⟩
  | 54 => ⟨S2097152x3, .i32⟩
  | 55 => ⟨S12x2097152, .f32⟩
  | 56 => ⟨S2097152, .f32⟩
  | 57 => ⟨S2097152, .f32⟩
  | 58 => ⟨S1x2097152, .f32⟩
  | 59 => ⟨S12x2097152, .f32⟩
  | 60 => ⟨S12x2097152, .f32⟩
  | 61 => ⟨S12x2097152, .f32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S2097152x1, .i32⟩
  | 84 => ⟨S2097152x1, .i32⟩
  | 85 => ⟨S2097152x1, .i32⟩
  | 86 => ⟨S2097152x3, .i32⟩
  | 87 => ⟨S12x2097152, .f32⟩
  | 88 => ⟨S2097152, .f32⟩
  | 89 => ⟨S2097152, .f32⟩
  | 90 => ⟨S1x2097152, .f32⟩
  | 91 => ⟨S12x2097152, .f32⟩
  | 92 => ⟨S12x2097152, .f32⟩
  | 93 => ⟨S12x2097152, .f32⟩
  | 94 => ⟨S_, .i32⟩
  | 95 => ⟨S2097152, .i32⟩
  | 96 => ⟨S2097152, .i1⟩
  | 97 => ⟨S_, .i32⟩
  | 98 => ⟨S2097152, .i32⟩
  | 99 => ⟨S2097152, .i32⟩
  | 100 => ⟨S2097152, .i32⟩
  | 101 => ⟨S_, .i32⟩
  | 102 => ⟨S2097152, .i32⟩
  | 103 => ⟨S2097152, .i1⟩
  | 104 => ⟨S_, .i32⟩
  | 105 => ⟨S2097152, .i32⟩
  | 106 => ⟨S2097152, .i32⟩
  | 107 => ⟨S2097152, .i32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S2097152x1, .i32⟩
  | 116 => ⟨S2097152x1, .i32⟩
  | 117 => ⟨S2097152x1, .i32⟩
  | 118 => ⟨S2097152x3, .i32⟩
  | 119 => ⟨S12x2097152, .f32⟩
  | 120 => ⟨S2097152, .f32⟩
  | 121 => ⟨S2097152, .f32⟩
  | 122 => ⟨S1x2097152, .f32⟩
  | 123 => ⟨S12x2097152, .f32⟩
  | 124 => ⟨S12x2097152, .f32⟩
  | 125 => ⟨S12x2097152, .f32⟩
  | 126 => ⟨S2097152x12, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_c_10 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_c_12 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_c_14 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v48 : Ref sig .tc := ⟨.hbm, 84, rfl⟩
abbrev main_c_15 : Ref sig .tc := ⟨.hbm, 85, rfl⟩
abbrev main_v49 : Ref sig .tc := ⟨.hbm, 86, rfl⟩
abbrev main_v50 : Ref sig .tc := ⟨.hbm, 87, rfl⟩
abbrev main_c_16 : Ref sig .tc := ⟨.hbm, 88, rfl⟩
abbrev main_c_17 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v51 : Ref sig .tc := ⟨.hbm, 95, rfl⟩
abbrev main_c_18 : Ref sig .tc := ⟨.hbm, 96, rfl⟩
abbrev main_v52 : Ref sig .tc := ⟨.hbm, 97, rfl⟩
abbrev main_v53 : Ref sig .tc := ⟨.hbm, 98, rfl⟩
abbrev main_c_19 : Ref sig .tc := ⟨.hbm, 99, rfl⟩
abbrev main_c_20 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v54 : Ref sig .tc := ⟨.hbm, 106, rfl⟩
abbrev main_c_21 : Ref sig .tc := ⟨.hbm, 107, rfl⟩
abbrev main_v55 : Ref sig .tc := ⟨.hbm, 108, rfl⟩
abbrev main_v56 : Ref sig .tc := ⟨.hbm, 109, rfl⟩
abbrev main_c_22 : Ref sig .tc := ⟨.hbm, 110, rfl⟩
abbrev main_c_23 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_v57 : Ref sig .tc := ⟨.hbm, 117, rfl⟩
abbrev main_cst_24 : Ref sig .tc := ⟨.hbm, 118, rfl⟩
abbrev main_v58 : Ref sig .tc := ⟨.hbm, 119, rfl⟩
abbrev main_v59 : Ref sig .tc := ⟨.hbm, 120, rfl⟩
abbrev main_cst_25 : Ref sig .tc := ⟨.hbm, 121, rfl⟩
abbrev main_v60 : Ref sig .tc := ⟨.hbm, 122, rfl⟩
abbrev main_v61 : Ref sig .tc := ⟨.hbm, 123, rfl⟩
abbrev main_cst_26 : Ref sig .tc := ⟨.hbm, 124, rfl⟩
abbrev main_v62 : Ref sig .tc := ⟨.hbm, 125, rfl⟩
abbrev main_v63 : Ref sig .tc := ⟨.hbm, 126, rfl⟩
abbrev main_c_27 : Ref sig .tc := ⟨.hbm, 127, rfl⟩
abbrev main_v64 : Ref sig .tc := ⟨.hbm, 128, rfl⟩
abbrev main_v65 : Ref sig .tc := ⟨.hbm, 129, rfl⟩
abbrev main_c_28 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_c_29 : Ref sig .tc := ⟨.hbm, 134, rfl⟩
abbrev main_v69 : Ref sig .tc := ⟨.hbm, 135, rfl⟩
abbrev main_v70 : Ref sig .tc := ⟨.hbm, 136, rfl⟩
abbrev main_c_30 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_c_31 : Ref sig .tc := ⟨.hbm, 141, rfl⟩
abbrev main_v74 : Ref sig .tc := ⟨.hbm, 142, rfl⟩
abbrev main_v75 : Ref sig .tc := ⟨.hbm, 143, rfl⟩
abbrev main_c_32 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_c_33 : Ref sig .tc := ⟨.hbm, 158, rfl⟩
abbrev main_v89 : Ref sig .tc := ⟨.hbm, 159, rfl⟩
abbrev main_v90 : Ref sig .tc := ⟨.hbm, 160, rfl⟩
abbrev main_c_34 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_c_35 : Ref sig .tc := ⟨.hbm, 165, rfl⟩
abbrev main_v94 : Ref sig .tc := ⟨.hbm, 166, rfl⟩
abbrev main_v95 : Ref sig .tc := ⟨.hbm, 167, rfl⟩
abbrev main_c_36 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_c_37 : Ref sig .tc := ⟨.hbm, 172, rfl⟩
abbrev main_v99 : Ref sig .tc := ⟨.hbm, 173, rfl⟩
abbrev main_v100 : Ref sig .tc := ⟨.hbm, 174, rfl⟩
abbrev main_c_38 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_c_39 : Ref sig .tc := ⟨.hbm, 190, rfl⟩
abbrev main_v115 : Ref sig .tc := ⟨.hbm, 191, rfl⟩
abbrev main_v116 : Ref sig .tc := ⟨.hbm, 192, rfl⟩
abbrev main_c_40 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_c_41 : Ref sig .tc := ⟨.hbm, 197, rfl⟩
abbrev main_v120 : Ref sig .tc := ⟨.hbm, 198, rfl⟩
abbrev main_v121 : Ref sig .tc := ⟨.hbm, 199, rfl⟩
abbrev main_c_42 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_c_43 : Ref sig .tc := ⟨.hbm, 204, rfl⟩
abbrev main_v125 : Ref sig .tc := ⟨.hbm, 205, rfl⟩
abbrev main_v126 : Ref sig .tc := ⟨.hbm, 206, rfl⟩
abbrev main_c_44 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_c_45 : Ref sig .tc := ⟨.hbm, 222, rfl⟩
abbrev main_v141 : Ref sig .tc := ⟨.hbm, 223, rfl⟩
abbrev main_v142 : Ref sig .tc := ⟨.hbm, 224, rfl⟩
abbrev main_c_46 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_c_47 : Ref sig .tc := ⟨.hbm, 229, rfl⟩
abbrev main_v146 : Ref sig .tc := ⟨.hbm, 230, rfl⟩
abbrev main_v147 : Ref sig .tc := ⟨.hbm, 231, rfl⟩
abbrev main_c_48 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_c_49 : Ref sig .tc := ⟨.hbm, 236, rfl⟩
abbrev main_v151 : Ref sig .tc := ⟨.hbm, 237, rfl⟩
abbrev main_v152 : Ref sig .tc := ⟨.hbm, 238, rfl⟩
abbrev main_c_50 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_c_51 : Ref sig .tc := ⟨.hbm, 254, rfl⟩
abbrev main_v167 : Ref sig .tc := ⟨.hbm, 255, rfl⟩
abbrev main_v168 : Ref sig .tc := ⟨.hbm, 256, rfl⟩
abbrev main_c_52 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_c_53 : Ref sig .tc := ⟨.hbm, 261, rfl⟩
abbrev main_v172 : Ref sig .tc := ⟨.hbm, 262, rfl⟩
abbrev main_v173 : Ref sig .tc := ⟨.hbm, 263, rfl⟩
abbrev main_c_54 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_c_55 : Ref sig .tc := ⟨.hbm, 268, rfl⟩
abbrev main_v177 : Ref sig .tc := ⟨.hbm, 269, rfl⟩
abbrev main_v178 : Ref sig .tc := ⟨.hbm, 270, rfl⟩
abbrev main_c_56 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_c_57 : Ref sig .tc := ⟨.hbm, 286, rfl⟩
abbrev main_v193 : Ref sig .tc := ⟨.hbm, 287, rfl⟩
abbrev main_v194 : Ref sig .tc := ⟨.hbm, 288, rfl⟩
abbrev main_c_58 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_c_59 : Ref sig .tc := ⟨.hbm, 293, rfl⟩
abbrev main_v198 : Ref sig .tc := ⟨.hbm, 294, rfl⟩
abbrev main_v199 : Ref sig .tc := ⟨.hbm, 295, rfl⟩
abbrev main_c_60 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_c_61 : Ref sig .tc := ⟨.hbm, 300, rfl⟩
abbrev main_v203 : Ref sig .tc := ⟨.hbm, 301, rfl⟩
abbrev main_v204 : Ref sig .tc := ⟨.hbm, 302, rfl⟩
abbrev main_c_62 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_c_63 : Ref sig .tc := ⟨.hbm, 318, rfl⟩
abbrev main_v219 : Ref sig .tc := ⟨.hbm, 319, rfl⟩
abbrev main_v220 : Ref sig .tc := ⟨.hbm, 320, rfl⟩
abbrev main_c_64 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_c_65 : Ref sig .tc := ⟨.hbm, 325, rfl⟩
abbrev main_v224 : Ref sig .tc := ⟨.hbm, 326, rfl⟩
abbrev main_v225 : Ref sig .tc := ⟨.hbm, 327, rfl⟩
abbrev main_c_66 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_c_67 : Ref sig .tc := ⟨.hbm, 332, rfl⟩
abbrev main_v229 : Ref sig .tc := ⟨.hbm, 333, rfl⟩
abbrev main_v230 : Ref sig .tc := ⟨.hbm, 334, rfl⟩
abbrev main_c_68 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_c_69 : Ref sig .tc := ⟨.hbm, 350, rfl⟩
abbrev main_v245 : Ref sig .tc := ⟨.hbm, 351, rfl⟩
abbrev main_v246 : Ref sig .tc := ⟨.hbm, 352, rfl⟩
abbrev main_c_70 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_c_71 : Ref sig .tc := ⟨.hbm, 357, rfl⟩
abbrev main_v250 : Ref sig .tc := ⟨.hbm, 358, rfl⟩
abbrev main_v251 : Ref sig .tc := ⟨.hbm, 359, rfl⟩
abbrev main_c_72 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_c_73 : Ref sig .tc := ⟨.hbm, 364, rfl⟩
abbrev main_v255 : Ref sig .tc := ⟨.hbm, 365, rfl⟩
abbrev main_v256 : Ref sig .tc := ⟨.hbm, 366, rfl⟩
abbrev main_c_74 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩

abbrev nD : Nat := 1
abbrev τ : Topo := Topo.v7x

variable {F : FTy → Type} [FloatOps F]

class Facts₀ : Prop where
  shapeCasts_S1x12x160x160x160_S12x160x160x160 : S1x12x160x160x160.ShapeCasts S12x160x160x160
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x1_S2097152x3_d1 : Shape.Concatenates [S2097152x1, S2097152x1, S2097152x1] S2097152x3 1
  bcast_S2097152_S1x2097152_1 : S2097152.BroadcastsInDim S1x2097152 (![1] : Fin 1 → Fin S1x2097152.rank)
  bcast_S1x2097152_S12x2097152_0_1 : S1x2097152.BroadcastsInDim S12x2097152 (![0, 1] : Fin 2 → Fin S12x2097152.rank)
  transposes_S12x2097152_S2097152x12_1_0 : S12x2097152.Transposes [1, 0] S2097152x12
  gather_S12x160x160x160_S2097152x3_S12x2097152_0_123_n_n_123_1_12111_wf : GatherDims.WF S12x160x160x160 S2097152x3 S12x2097152 [0] [1, 2, 3] [] [1, 2, 3] [] 1 ![12, 1, 1, 1]

variable [Facts₀]

def gather_S12x160x160x160_S2097152x3_S12x2097152_0_123_n_n_123_1_12111 : GatherDims S12x160x160x160 S2097152x3 S12x2097152 where
  offsetDims := [0]
  collapsedSliceDims := [1, 2, 3]
  operandBatchingDims := []
  startIndicesBatchingDims := []
  startIndexMap := [1, 2, 3]
  indexVectorDim := 1
  sliceSizes := ![12, 1, 1, 1]
  wf := gather_S12x160x160x160_S2097152x3_S12x2097152_0_123_n_n_123_1_12111_wf

class Facts : Prop extends Facts₀ where

variable [Facts]
-- ==== Proof.LibIntIndex.lean ====
import Idealize.ShloMosaic.Lib.StableHlo.Predicate

-- 32-bit words read as signed integers: where clipping, comparison and the flat-row arithmetic are the integers' own.

namespace Idealize.ShloMosaic.IntIndex

open Idealize.ShloMosaic

theorem toNat_of_toInt_nonneg (v : BitVec 32) (h : 0 ≤ v.toInt) : v.toNat < 2 ^ 31 ∧ v.toInt = (v.toNat : Int) := by
  have hc := BitVec.toInt_eq_toNat_cond v
  have hlt := v.isLt
  constructor <;> omega

theorem toInt_bounds (v : BitVec 32) : -(2 ^ 31 : Int) ≤ v.toInt ∧ v.toInt < 2 ^ 31 := by
  have hc := BitVec.toInt_eq_toNat_cond v
  have hlt := v.isLt
  constructor <;> omega

theorem eq_of_toInt_eq {a b : BitVec 32} (h : a.toInt = b.toInt) : a = b := BitVec.eq_of_toInt_eq h

theorem toInt_maxsi (x y : BitVec 32) : (IntOp.maxsi x y).toInt = max x.toInt y.toInt := by
  unfold IntOp.maxsi
  split <;> rename_i hc <;> simp only [BitVec.slt_eq_decide, decide_eq_true_eq] at hc <;> omega

theorem toInt_minsi (x y : BitVec 32) : (IntOp.minsi x y).toInt = min x.toInt y.toInt := by
  unfold IntOp.minsi
  split <;> rename_i hc <;> simp only [BitVec.slt_eq_decide, decide_eq_true_eq] at hc <;> omega

theorem toInt_clip (hi v : BitVec 32) :
    (IntOp.minsi hi (IntOp.maxsi 0#32 v)).toInt = min hi.toInt (max 0 v.toInt) := by
  rw [toInt_minsi, toInt_maxsi, BitVec.toInt_zero]

theorem clip_range (hi v : BitVec 32) (hhi : 0 ≤ hi.toInt) :
    0 ≤ (IntOp.minsi hi (IntOp.maxsi 0#32 v)).toInt ∧ (IntOp.minsi hi (IntOp.maxsi 0#32 v)).toInt ≤ hi.toInt := by
  rw [toInt_clip]; omega

theorem clip_of_mem (hi v : BitVec 32) (h0 : 0 ≤ v.toInt) (h1 : v.toInt ≤ hi.toInt) :
    IntOp.minsi hi (IntOp.maxsi 0#32 v) = v := by
  apply BitVec.eq_of_toInt_eq; rw [toInt_clip]; omega

theorem cmpi_slt_zero (v : BitVec 32) (h : 0 ≤ v.toInt) : IntOp.cmpi .slt v 0#32 = 0#1 := by
  have hb : v.slt 0#32 = false := by
    rw [BitVec.slt_eq_decide, BitVec.toInt_zero]; exact decide_eq_false (by omega)
  simp only [IntOp.cmpi, hb]; rfl

theorem cmpi_sge_zero (v : BitVec 32) (h : 0 ≤ v.toInt) : IntOp.cmpi .sge v 0#32 = 1#1 := by
  have hb : (0#32 : BitVec 32).sle v = true := by
    rw [BitVec.sle_eq_decide, BitVec.toInt_zero]; exact decide_eq_true h
  simp only [IntOp.cmpi, hb]; rfl

theorem cmpi_sle_of_le (v b : BitVec 32) (h : v.toInt ≤ b.toInt) : IntOp.cmpi .sle v b = 1#1 := by
  have hb : v.sle b = true := by rw [BitVec.sle_eq_decide]; exact decide_eq_true h
  simp only [IntOp.cmpi, hb]; rfl

theorem cmpi_slt_of_lt (v b : BitVec 32) (h : v.toInt < b.toInt) : IntOp.cmpi .slt v b = 1#1 := by
  have hb : v.slt b = true := by rw [BitVec.slt_eq_decide]; exact decide_eq_true h
  simp only [IntOp.cmpi, hb]; rfl

theorem andi_one_one : IntOp.andi 1#1 1#1 = 1#1 := by decide

theorem flat_toInt (z y x : BitVec 32)
    (hz0 : 0 ≤ z.toInt) (hz1 : z.toInt ≤ 159) (hy0 : 0 ≤ y.toInt) (hy1 : y.toInt ≤ 159)
    (hx0 : 0 ≤ x.toInt) (hx1 : x.toInt ≤ 159) :
    (IntOp.addi (IntOp.addi (IntOp.muli z 25600#32) (IntOp.muli y 160#32)) x).toInt
      = z.toInt * 25600 + y.toInt * 160 + x.toInt := by
  obtain ⟨_, ez⟩ := toNat_of_toInt_nonneg z hz0
  obtain ⟨_, ey⟩ := toNat_of_toInt_nonneg y hy0
  obtain ⟨_, ex⟩ := toNat_of_toInt_nonneg x hx0
  have hN : (IntOp.addi (IntOp.addi (IntOp.muli z 25600#32) (IntOp.muli y 160#32)) x).toNat
      = z.toNat * 25600 + y.toNat * 160 + x.toNat := by
    simp only [IntOp.addi, IntOp.muli, BitVec.toNat_add, BitVec.toNat_mul, BitVec.toNat_ofNat]
    omega
  rw [StableHlo.Predicate.toInt_eq_toNat_of_lt (by rw [hN]; omega), hN, ez, ey, ex]
  omega

theorem flat_nonneg (z y x : BitVec 32)
    (hz0 : 0 ≤ z.toInt) (hz1 : z.toInt ≤ 159) (hy0 : 0 ≤ y.toInt) (hy1 : y.toInt ≤ 159)
    (hx0 : 0 ≤ x.toInt) (hx1 : x.toInt ≤ 159) :
    0 ≤ (IntOp.addi (IntOp.addi (IntOp.muli z 25600#32) (IntOp.muli y 160#32)) x).toInt := by
  rw [flat_toInt z y x hz0 hz1 hy0 hy1 hx0 hx1]; omega

theorem toInt_last : (4095999#32 : BitVec 32).toInt = 4095999 := by decide

theorem flat_le_last (z y x : BitVec 32)
    (hz0 : 0 ≤ z.toInt) (hz1 : z.toInt ≤ 159) (hy0 : 0 ≤ y.toInt) (hy1 : y.toInt ≤ 159)
    (hx0 : 0 ≤ x.toInt) (hx1 : x.toInt ≤ 159) :
    (IntOp.addi (IntOp.addi (IntOp.muli z 25600#32) (IntOp.muli y 160#32)) x).toInt ≤ (4095999#32 : BitVec 32).toInt := by
  rw [flat_toInt z y x hz0 hz1 hy0 hy1 hx0 hx1, toInt_last]; omega

theorem flat_lt (z y x : BitVec 32)
    (hz0 : 0 ≤ z.toInt) (hz1 : z.toInt ≤ 159) (hy0 : 0 ≤ y.toInt) (hy1 : y.toInt ≤ 159)
    (hx0 : 0 ≤ x.toInt) (hx1 : x.toInt ≤ 159) :
    (IntOp.addi (IntOp.addi (IntOp.muli z 25600#32) (IntOp.muli y 160#32)) x).toInt < 4096000 := by
  rw [flat_toInt z y x hz0 hz1 hy0 hy1 hx0 hx1]; omega

theorem flat_toInt_toNat (z y x : BitVec 32)
    (hz0 : 0 ≤ z.toInt) (hz1 : z.toInt ≤ 159) (hy0 : 0 ≤ y.toInt) (hy1 : y.toInt ≤ 159)
    (hx0 : 0 ≤ x.toInt) (hx1 : x.toInt ≤ 159) :
    (IntOp.addi (IntOp.addi (IntOp.muli z 25600#32) (IntOp.muli y 160#32)) x).toInt.toNat
      = z.toInt.toNat * 25600 + y.toInt.toNat * 160 + x.toInt.toNat := by
  rw [flat_toInt z y x hz0 hz1 hy0 hy1 hx0 hx1]; omega

theorem flat_decode (a b c : Nat) (ha : a ≤ 159) (hb : b ≤ 159) (hc : c ≤ 159) :
    (a * 25600 + b * 160 + c) / 25600 = a ∧ (a * 25600 + b * 160 + c) / 160 % 160 = b
      ∧ (a * 25600 + b * 160 + c) % 160 = c := by
  refine ⟨?_, ?_, ?_⟩ <;> omega

theorem toInt_toNat_le (v : BitVec 32) (h0 : 0 ≤ v.toInt) (h1 : v.toInt ≤ 159) : v.toInt.toNat ≤ 159 := by
  omega

theorem min_toInt_toNat (v : BitVec 32) (h0 : 0 ≤ v.toInt) (h1 : v.toInt ≤ 159) :
    min v.toInt.toNat 159 = v.toInt.toNat := by
  omega

end Idealize.ShloMosaic.IntIndex
-- ==== Proof.Spec.lean ====
import Idealize.ShloMosaic.PureOps
import Idealize.ShloMosaic.Lib.ValueIdx

-- Trilinear interpolation as one function of the table, the fractional parts and the corner coordinates; the sum and
-- the products are taken in the order both programs use.

noncomputable section

namespace Cert.Spec

open Idealize.ShloMosaic Idealize.ShloMosaic.ValueIdx

variable {F : FTy → Type} [FloatOps F]

abbrev SG : Shape := ⟨4, ![12, 160, 160, 160]⟩

abbrev SN : Shape := ⟨1, ![2097152]⟩

def pos (v : BitVec 32) : Fin 160 := ⟨min v.toInt.toNat 159, by omega⟩

def corner (g : Vec F SG .f32) (z y x : IVec SN 32) (n : Fin 2097152) (c : Fin 12) : F .f32 :=
  g (ix4 c (pos (z (ix1 n))) (pos (y (ix1 n))) (pos (x (ix1 n))))

def weight (wz wy wx : F .f32) : F .f32 := FloatOps.mulf (FloatOps.mulf wz wy) wx

def lower (f : F .f32) : F .f32 := FloatOps.subf (Scalar.ofBits .f32 0x3F800000#32) f

def tri (g : Vec F SG .f32) (fx fy fz : Vec F SN .f32) (x0 y0 z0 x1 y1 z1 : IVec SN 32) (n : Fin 2097152) (c : Fin 12) : F .f32 :=
  FloatOps.addf (FloatOps.addf (FloatOps.addf (FloatOps.addf (FloatOps.addf (FloatOps.addf (FloatOps.addf
    (FloatOps.mulf (corner g z0 y0 x0 n c) (weight (lower (fz (ix1 n))) (lower (fy (ix1 n))) (lower (fx (ix1 n)))))
    (FloatOps.mulf (corner g z0 y0 x1 n c) (weight (lower (fz (ix1 n))) (lower (fy (ix1 n))) (fx (ix1 n)))))
    (FloatOps.mulf (corner g z0 y1 x0 n c) (weight (lower (fz (ix1 n))) (fy (ix1 n)) (lower (fx (ix1 n))))))
    (FloatOps.mulf (corner g z0 y1 x1 n c) (weight (lower (fz (ix1 n))) (fy (ix1 n)) (fx (ix1 n)))))
    (FloatOps.mulf (corner g z1 y0 x0 n c) (weight (fz (ix1 n)) (lower (fy (ix1 n))) (lower (fx (ix1 n))))))
    (FloatOps.mulf (corner g z1 y0 x1 n c) (weight (fz (ix1 n)) (lower (fy (ix1 n))) (fx (ix1 n)))))
    (FloatOps.mulf (corner g z1 y1 x0 n c) (weight (fz (ix1 n)) (fy (ix1 n)) (lower (fx (ix1 n))))))
    (FloatOps.mulf (corner g z1 y1 x1 n c) (weight (fz (ix1 n)) (fy (ix1 n)) (fx (ix1 n))))

end Cert.Spec

end
-- ==== Proof.RefStages.lean ====
import proofs.«109906_j49606872269475_1_alg».proof.Proof.Gen.ReferenceIdeal
import proofs.«109906_j49606872269475_1_alg».proof.Proof.LibIntIndex
import proofs.«109906_j49606872269475_1_alg».proof.Proof.Spec
import Idealize.ShloMosaic.Lib.Pipeline.Value

/-
  Both programs compute, for every point, its voxel coordinates, their fractional parts and the integer coordinates of the
  cell that holds it by the same operations. This module names those arrays once, as functions of the inputs, and the
  reference's eight-corner sum over them.
-/

noncomputable section

namespace Cert.ReferenceIdeal.Stages

open Cert.ReferenceIdeal Cert.ReferenceIdeal.Gen Idealize.ShloMosaic Idealize.ShloMosaic.ValueIdx

variable {F : FTy → Type} [FloatOps F]

structure Args (F : FTy → Type) where
  xyz : Vec F S2097152x3 .f32
  grid : Vec F S1x12x160x160x160 .f32
  lo : Vec F S3 .f32
  hi : Vec F S3 .f32

def fill (w : BitVec 32) : Vec F S2097152 .f32 := broadcastInDim S2097152 ![] bcast_S_S2097152 (constant (F := F) S_ .f32 w)

def ifill (w : BitVec 32) : IVec S2097152 32 := broadcastInDim S2097152 ![] bcast_S_S2097152 (constantI S_ 32 w)

def table (a : Args F) : Vec F S12x160x160x160 .f32 := shapeCast _ a.grid shapeCasts_S1x12x160x160x160_S12x160x160x160

def spread (v : Vec F S3 .f32) : Vec F S2097152x3 .f32 :=
  broadcastInDim S2097152x3 ![0, 1] bcast_S1x3_S2097152x3_0_1 (broadcastInDim S1x3 ![1] bcast_S3_S1x3_1 v)

-- the points in the box's own coordinates, scaled to [-1, 1], the three axes reversed
def scaled (a : Args F) : Vec F S2097152x3 .f32 :=
  subf (mulf (Host.reverse [1] (Host.divf (subf a.xyz (spread a.lo)) (spread (subf a.hi a.lo))))
      (broadcastInDim S2097152x3 ![] bcast_S_S2097152x3 (constant (F := F) S_ .f32 0x40000000#32)))
    (broadcastInDim S2097152x3 ![] bcast_S_S2097152x3 (constant (F := F) S_ .f32 0x3F800000#32))

-- (c + 1) / 2 * 159: a coordinate in [-1, 1] as a position on a grid axis of 160 nodes
def voxel (c : Vec F S2097152x1 .f32) : Vec F S2097152 .f32 :=
  mulf (mulf (addf (shapeCast _ c shapeCasts_S2097152x1_S2097152) (fill 0x3F800000#32)) (fill 0x3F000000#32)) (fill 0x431F0000#32)

def px (a : Args F) : Vec F S2097152 .f32 := voxel (extractStridedSlice S2097152x1 ![0, 0] (scaled a) slices_S2097152x3_S2097152x1_0_0)
def py (a : Args F) : Vec F S2097152 .f32 := voxel (extractStridedSlice S2097152x1 ![0, 1] (scaled a) slices_S2097152x3_S2097152x1_0_1)
def pz (a : Args F) : Vec F S2097152 .f32 := voxel (extractStridedSlice S2097152x1 ![0, 2] (scaled a) slices_S2097152x3_S2097152x1_0_2)

def frac (p : Vec F S2097152 .f32) : Vec F S2097152 .f32 := subf p (Host.floor p)

def lower (f : Vec F S2097152 .f32) : Vec F S2097152 .f32 := subf (fill 0x3F800000#32) f

def clip (v : IVec S2097152 32) : IVec S2097152 32 := minsi (ifill 159#32) (maxsi (ifill 0#32) v)

def cell (p : Vec F S2097152 .f32) : IVec S2097152 32 := clip (fptosi 32 (Host.floor p))

def next (v : IVec S2097152 32) : IVec S2097152 32 := clip (addi v (ifill 1#32))

def fx (a : Args F) := frac (px a)
def fy (a : Args F) := frac (py a)
def fz (a : Args F) := frac (pz a)
def x0 (a : Args F) := cell (px a)
def y0 (a : Args F) := cell (py a)
def z0 (a : Args F) := cell (pz a)
def x1 (a : Args F) := next (x0 a)
def y1 (a : Args F) := next (y0 a)
def z1 (a : Args F) := next (z0 a)

-- an index column of the reference's gather: a negative index counts from the end of its axis
def col (v : IVec S2097152 32) : IVec S2097152x1 32 :=
  broadcastInDim S2097152x1 ![0] bcast_S2097152_S2097152x1_0 (select (cmpi .slt v (ifill 0#32)) (addi v (ifill 160#32)) v)

-- one corner's term of the reference: the table's entries at (z, y, x), times the product of three weights
def term (g : Vec F S12x160x160x160 .f32) (z y x : IVec S2097152 32) (wz wy wx : Vec F S2097152 .f32) : Vec F S12x2097152 .f32 :=
  mulf (Host.gather gather_S12x160x160x160_S2097152x3_S12x2097152_0_123_n_n_123_1_12111 g
      (concatenate S2097152x3 1 [⟨S2097152x1, col z⟩, ⟨S2097152x1, col y⟩, ⟨S2097152x1, col x⟩]
        concatenates_S2097152x1_S2097152x1_S2097152x1_S2097152x3_d1))
    (broadcastInDim S12x2097152 ![0, 1] bcast_S1x2097152_S12x2097152_0_1
      (broadcastInDim S1x2097152 ![1] bcast_S2097152_S1x2097152_1 (mulf (mulf wz wy) wx)))

def s1 (a : Args F) := term (table a) (z0 a) (y0 a) (x0 a) (lower (fz a)) (lower (fy a)) (lower (fx a))
def s2 (a : Args F) := addf (s1 a) (term (table a) (z0 a) (y0 a) (x1 a) (lower (fz a)) (lower (fy a)) (fx a))
def s3 (a : Args F) := addf (s2 a) (term (table a) (z0 a) (y1 a) (x0 a) (lower (fz a)) (fy a) (lower (fx a)))
def s4 (a : Args F) := addf (s3 a) (term (table a) (z0 a) (y1 a) (x1 a) (lower (fz a)) (fy a) (fx a))
def s5 (a : Args F) := addf (s4 a) (term (table a) (z1 a) (y0 a) (x0 a) (fz a) (lower (fy a)) (lower (fx a)))
def s6 (a : Args F) := addf (s5 a) (term (table a) (z1 a) (y0 a) (x1 a) (fz a) (lower (fy a)) (fx a))
def s7 (a : Args F) := addf (s6 a) (term (table a) (z1 a) (y1 a) (x0 a) (fz a) (fy a) (lower (fx a)))
def s8 (a : Args F) := addf (s7 a) (term (table a) (z1 a) (y1 a) (x1 a) (fz a) (fy a) (fx a))

def result (a : Args F) : Vec F S2097152x12 .f32 := transpose S2097152x12 [1, 0] (s8 a) transposes_S12x2097152_S2097152x12_1_0

-- the table interpolated at point n, channel q
def interp (a : Args F) (n : Fin 2097152) (q : Fin 12) : F .f32 :=
  Cert.Spec.tri (table a) (fx a) (fy a) (fz a) (x0 a) (y0 a) (z0 a) (x1 a) (y1 a) (z1 a) n q

theorem fill_apply (w : BitVec 32) (i : S2097152.Idx) : fill (F := F) w i = Scalar.ofBits .f32 w := by
  unfold fill
  rw [broadcastInDim_apply _ bcast_S_S2097152 _ i ix0 (fun a => a.elim0)]
  rfl

theorem ifill_apply (w : BitVec 32) (i : S2097152.Idx) : ifill w i = w := by
  unfold ifill
  rw [broadcastInDim_apply _ bcast_S_S2097152 _ i ix0 (fun a => a.elim0)]
  rfl

theorem lower_apply (f : Vec F S2097152 .f32) (i : S2097152.Idx) : lower f i = Cert.Spec.lower (f i) := by
  show FloatOps.subf (fill 0x3F800000#32 i) (f i) = _
  rw [fill_apply]
  rfl

-- a clipped coordinate is a grid node: a minimum with 159 of a maximum with 0
theorem clip_range (v : IVec S2097152 32) (i : S2097152.Idx) : 0 ≤ (clip v i).toInt ∧ (clip v i).toInt ≤ 159 := by
  show 0 ≤ (IntOp.minsi (ifill 159#32 i) (IntOp.maxsi (ifill 0#32 i) (v i))).toInt
    ∧ (IntOp.minsi (ifill 159#32 i) (IntOp.maxsi (ifill 0#32 i) (v i))).toInt ≤ 159
  rw [ifill_apply, ifill_apply]
  have h159 : (159#32 : BitVec 32).toInt = 159 := by decide
  have h := IntIndex.clip_range 159#32 (v i) (by rw [h159]; decide)
  rw [h159] at h
  exact h

end Cert.ReferenceIdeal.Stages

end
-- ==== Proof.LibStretches.lean ====
import Idealize.ShloMosaic.Lib.StableHlo.Run
import Idealize.ShloMosaic.Lib.Pipeline.Frame

/-
  A long line of host operations cut into stretches: the contents after the first `k` stretches, and the fact that a
  stretch leaves alone every reference outside the list of those it writes. Each operation writes one reference, so
  which stretch wrote a reference is decided over the lists.
-/

namespace Idealize.ShloMosaic.StableHlo

variable {τ : Topo} {sig : RefSig} {Val : EltTy → Type}

def afterN (L : List (List (HloOp τ sig Val))) (V : Valuation τ sig Val) : Nat → Valuation τ sig Val
  | 0 => V
  | k + 1 => after (L.getD k []) (afterN L V k)

theorem afterN_eq_take (L : List (List (HloOp τ sig Val))) (V : Valuation τ sig Val) :
    ∀ k, afterN L V k = after (L.take k).flatten V
  | 0 => rfl
  | k + 1 => by
    rw [afterN, afterN_eq_take L V k, ← after_append, List.take_succ, List.flatten_append]
    cases h : L[k]? <;> simp [List.getD, h]

theorem after_flatten (L : List (List (HloOp τ sig Val))) (V : Valuation τ sig Val) :
    after L.flatten V = afterN L V L.length := by
  rw [afterN_eq_take, List.take_length]

theorem forall_flatten {α : Type} {p : α → Prop} {L : List (List α)} (h : L.Forall fun l => l.Forall p) :
    L.flatten.Forall p :=
  List.forall_iff_forall_mem.mpr fun x hx => by
    obtain ⟨l, hl, hxl⟩ := List.mem_flatten.mp hx
    exact List.forall_iff_forall_mem.mp (List.forall_iff_forall_mem.mp h l hl) x hxl

def WritesIn (ops : List (HloOp τ sig Val)) (W : List (Ref sig .tc)) : Prop :=
  ops.Forall fun op => op.writes ⊆ (W.map (Proc.devRef (τ := τ) .tc)).toFinset

-- a stretch whose operations write, one each and in order, the references of the list
theorem writesIn_of_eq {ops : List (HloOp τ sig Val)} {W : List (Ref sig .tc)}
    (h : ops.map HloOp.writes = W.map fun y => ({Proc.devRef .tc y} : Finset (DevRef τ sig))) : WritesIn ops W :=
  List.forall_iff_forall_mem.mpr fun op hop => by
    obtain ⟨y, hy, e⟩ := List.mem_map.mp (h ▸ List.mem_map_of_mem (f := HloOp.writes) hop)
    rw [← e]
    exact Finset.singleton_subset_iff.mpr (List.mem_toFinset.mpr (List.mem_map_of_mem hy))

theorem forall₂_writesIn_of_eq : ∀ {L : List (List (HloOp τ sig Val))} {Ws : List (List (Ref sig .tc))},
    L.map (List.map HloOp.writes) = Ws.map (List.map fun y => ({Proc.devRef .tc y} : Finset (DevRef τ sig))) →
      List.Forall₂ WritesIn L Ws
  | [], [], _ => .nil
  | _ :: _, _ :: _, h => by
    rw [List.map_cons, List.map_cons, List.cons.injEq] at h
    exact .cons (writesIn_of_eq h.1) (forall₂_writesIn_of_eq h.2)
  | [], _ :: _, h => nomatch h
  | _ :: _, [], h => nomatch h

theorem writesIn_getD {L : List (List (HloOp τ sig Val))} {Ws : List (List (Ref sig .tc))} (h : List.Forall₂ WritesIn L Ws) :
    ∀ k, WritesIn (L.getD k []) (Ws.getD k []) := by
  induction h with
  | nil => intro k; simp [WritesIn, List.Forall]
  | cons hd _ ih => intro k; cases k with
    | zero => simpa using hd
    | succ k => simpa using ih k

theorem afterN_keep {L : List (List (HloOp τ sig Val))} {Ws : List (List (Ref sig .tc))} (h : List.Forall₂ WritesIn L Ws)
    (V : Valuation τ sig Val) (k : Nat) (r : Ref sig .tc) (hr : r ∉ Ws.getD k []) :
    afterN L V (k + 1) (no_index (Proc.devRef .tc r)) = afterN L V k (Proc.devRef .tc r) :=
  after_of_writes_sub _ _ (writesIn_getD h k) hr

theorem afterN_of_not_written {L : List (List (HloOp τ sig Val))} {Ws : List (List (Ref sig .tc))} (h : List.Forall₂ WritesIn L Ws)
    (V : Valuation τ sig Val) (r : Ref sig .tc) :
    ∀ k, (∀ j < k, r ∉ Ws.getD j []) → afterN L V k (Proc.devRef .tc r) = V (Proc.devRef .tc r)
  | 0, _ => rfl
  | k + 1, hr => (afterN_keep h V k r (hr k (Nat.lt_succ_self k))).trans
      (afterN_of_not_written h V r k fun j hj => hr j (Nat.lt_succ_of_lt hj))

end Idealize.ShloMosaic.StableHlo
-- ==== Proof.KerHostTable.lean ====
import proofs.«109906_j49606872269475_1_alg».proof.Proof.Gen.KernelIdeal.Launch
import proofs.«109906_j49606872269475_1_alg».proof.Proof.LibStretches

-- The kernel program's operations before its blockwise sum, as the stretches they come in, and what each stretch writes.

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

def stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]

-- the references each stretch writes, stretch by stretch
abbrev Ws : List (List (Ref sig .tc)) :=
  [[main_v0, main_v1, main_v2, main_v3, main_v4, main_v5, main_v6, main_v7, main_v8, main_cst, main_v9, main_v10, main_cst_0, main_v11, main_v12, main_v13, main_v14, main_v15, main_v16, main_v17, main_v18, main_cst_1, main_v19, main_v20, main_cst_2, main_v21, main_v22, main_cst_3, main_v23, main_v24, main_cst_4, main_v25, main_v26, main_cst_5, main_v27, main_v28, main_cst_6, main_v29, main_v30, main_cst_7, main_v31, main_v32, main_cst_8, main_v33, main_v34, main_cst_9, main_v35, main_v36, main_v37, main_v38, main_v39, main_v40, main_v41, main_v42, main_v43, main_v44, main_v45, main_v46, main_c, main_c_10],
   [main_call0_v0, main_call0_v1, main_call0_v2, main_call0_v3, main_call0_v4, main_v47],
   [main_v48, main_c_11, main_c_12],
   [main_call1_v0, main_call1_v1, main_call1_v2, main_call1_v3, main_call1_v4, main_v49],
   [main_v50, main_c_13, main_c_14],
   [main_call2_v0, main_call2_v1, main_call2_v2, main_call2_v3, main_call2_v4, main_v51],
   [main_c_15, main_v52, main_v53, main_c_16, main_c_17],
   [main_call3_v0, main_call3_v1, main_call3_v2, main_call3_v3, main_call3_v4, main_v54],
   [main_c_18, main_v55, main_v56, main_c_19, main_c_20],
   [main_call4_v0, main_call4_v1, main_call4_v2, main_call4_v3, main_call4_v4, main_v57],
   [main_c_21, main_v58, main_v59, main_c_22, main_c_23],
   [main_call5_v0, main_call5_v1, main_call5_v2, main_call5_v3, main_call5_v4, main_v60],
   [main_v61, main_v62, main_c_24, main_v63, main_v64, main_c_25, main_v65, main_v66, main_v67, main_v68],
   [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v69],
   [main_c_26, main_v70, main_v71, main_c_27, main_v72, main_v73, main_v74, main_v75],
   [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v76],
   [main_c_28, main_v77, main_v78, main_c_29, main_v79, main_v80, main_v81, main_v82],
   [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v83],
   [main_c_30, main_v84, main_v85, main_c_31, main_v86, main_v87, main_v88, main_v89],
   [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v90],
   [main_c_32, main_v91, main_v92, main_c_33, main_v93, main_v94, main_v95, main_v96],
   [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v97],
   [main_c_34, main_v98, main_v99, main_c_35, main_v100, main_v101, main_v102, main_v103],
   [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v104],
   [main_c_36, main_v105, main_v106, main_c_37, main_v107, main_v108, main_v109, main_v110],
   [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v111],
   [main_c_38, main_v112, main_v113, main_c_39, main_v114, main_v115, main_v116, main_v117],
   [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v118]]

set_option maxHeartbeats 4000000 in
theorem covers : List.Forall₂ WritesIn (stretches (F := F)) Ws := forall₂_writesIn_of_eq rfl

def val (k : Nat) (V0 : Valuation τ sig (Elt F)) : Valuation τ sig (Elt F) := afterN stretches V0 k

theorem val_keep (V0 : Valuation τ sig (Elt F)) (k : Nat) (r : Ref sig .tc) (h : r ∉ Ws.getD k []) :
    val (k + 1) V0 (no_index (Proc.devRef .tc r)) = val k V0 (Proc.devRef .tc r) :=
  afterN_keep covers V0 k r h

theorem after_all (V0 : Valuation τ sig (Elt F)) : after (stretches (F := F)).flatten V0 = val 28 V0 :=
  after_flatten stretches V0

end Cert.KernelIdeal.Host

end
-- ==== Proof.KerStageDefs.lean ====
import proofs.«109906_j49606872269475_1_alg».proof.KernelIdeal
import proofs.«109906_j49606872269475_1_alg».proof.Proof.Gen.KernelIdeal

-- The arrays only the kernel's program computes: the table with channels last and flattened, a node's flat row, the row lookup.

noncomputable section

namespace Cert.KernelIdeal.Host

open Cert.KernelIdeal Cert.KernelIdeal.Gen Idealize.ShloMosaic Idealize.ShloMosaic.TcCoe Idealize.SL.Sem

variable {F : FTy → Type} [FloatOps F]

def gflat (g : (⟨S12x160x160x160, .f32⟩ : BufTy).Contents (Elt F)) : (⟨S4096000x12, .f32⟩ : BufTy).Contents (Elt F) :=
  shapeCast _ (transpose S160x160x160x12 [1, 2, 3, 0] g transposes_S12x160x160x160_S160x160x160x12_1_2_3_0)
    shapeCasts_S160x160x160x12_S4096000x12

def flatIdx (z y x : (⟨S2097152, .i32⟩ : BufTy).Contents (Elt F)) : (⟨S2097152, .i32⟩ : BufTy).Contents (Elt F) :=
  addi (addi (muli z (broadcastInDim S2097152 ![] bcast_S_S2097152 (constantI S_ 32 25600#32)))
    (muli y (broadcastInDim S2097152 ![] bcast_S_S2097152 (constantI S_ 32 160#32)))) x

def wrapIdx (idx : (⟨S2097152, .i32⟩ : BufTy).Contents (Elt F)) : (⟨S2097152x1, .i32⟩ : BufTy).Contents (Elt F) :=
  broadcastInDim S2097152x1 ![0] bcast_S2097152_S2097152x1_0
    (select (cmpi .slt idx (broadcastInDim S2097152 ![] bcast_S_S2097152 (constantI S_ 32 0#32)))
      (addi idx (broadcastInDim S2097152 ![] bcast_S_S2097152 (constantI S_ 32 4096000#32))) idx)

def inRows (j : (⟨S2097152x1, .i32⟩ : BufTy).Contents (Elt F)) : (⟨S2097152, .i1⟩ : BufTy).Contents (Elt F) :=
  Host.reduce IntOp.andi
    (andi (cmpi .sge j (broadcastInDim S2097152x1 ![] bcast_S_S2097152x1 (constantI S_ 32 0#32)))
      (cmpi .sle j (broadcastInDim S2097152x1 ![0, 1] bcast_S1x1_S2097152x1_0_1
        (broadcastInDim S1x1 ![1] bcast_S1_S1x1_1 (constantI S1 32 4095999#32)))))
    (constantI S_ 1 1#1) reducesTo_S2097152x1_S2097152_d1 h_S_

def takeRows (tbl : (⟨S4096000x12, .f32⟩ : BufTy).Contents (Elt F)) (idx : (⟨S2097152, .i32⟩ : BufTy).Contents (Elt F)) :
    (⟨S2097152x12, .f32⟩ : BufTy).Contents (Elt F) :=
  select (broadcastInDim S2097152x12 ![0] bcast_S2097152_S2097152x12_0 (inRows (F := F) (wrapIdx (F := F) idx)))
    (Host.gather gather_S4096000x12_S2097152x1_S2097152x12_1_0_n_n_0_1_112 tbl (wrapIdx (F := F) idx))
    (broadcastInDim S2097152x12 ![] bcast_S_S2097152x12 (constant S_ .f32 0x7FC00000#32))

-- the kernel's lookup for one corner: the rows of the channels-last, flattened table at the nodes (z, y, x)
def rowsAt (g : (⟨S12x160x160x160, .f32⟩ : BufTy).Contents (Elt F)) (z y x : (⟨S2097152, .i32⟩ : BufTy).Contents (Elt F)) :
    (⟨S2097152x12, .f32⟩ : BufTy).Contents (Elt F) :=
  takeRows (F := F) (gflat (F := F) g) (flatIdx (F := F) z y x)

end Cert.KernelIdeal.Host

end
-- ==== Proof.KerHostA.lean ====
import proofs.«109906_j49606872269475_1_alg».proof.Proof.Gen.KernelIdeal.Frame
import proofs.«109906_j49606872269475_1_alg».proof.Proof.RefStages
import proofs.«109906_j49606872269475_1_alg».proof.Proof.KerHostTable
import proofs.«109906_j49606872269475_1_alg».proof.Proof.KerStageDefs

-- The kernel's program computes the same named arrays as the reference; here its buffers are read back, stretch by stretch.

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.Stages

variable {F : FTy → Type} [FloatOps F]

macro "keep_down" : tactic => `(tactic| try simp (disch := decide) only [val_keep])

abbrev args (V0 : Valuation τ sig (Elt F)) : Args F :=
  ⟨V0 (Proc.devRef .tc main_arg0), V0 (Proc.devRef .tc main_arg1), V0 (Proc.devRef .tc main_arg2), V0 (Proc.devRef .tc main_arg3)⟩

set_option maxHeartbeats 2000000 in
theorem val1_v0 (V0 : Valuation τ sig (Elt F)) : val 1 V0 (no_index (Proc.devRef .tc main_v0)) = table (args V0) := by
  show after hostOps0 (val 0 V0) _ = _; simp only [hostOps0]; after_results_simp; rfl

set_option maxHeartbeats 2000000 in
theorem val1_v41 (V0 : Valuation τ sig (Elt F)) :
    val 1 V0 (no_index (Proc.devRef .tc main_v41)) = shapeCast _ (fx (args V0)) shapeCasts_S2097152_S2097152x1 := by
  show after hostOps0 (val 0 V0) _ = _; simp only [hostOps0]; after_results_simp; rfl

set_option maxHeartbeats 2000000 in
theorem val1_v43 (V0 : Valuation τ sig (Elt F)) :
    val 1 V0 (no_index (Proc.devRef .tc main_v43)) = shapeCast _ (fy (args V0)) shapeCasts_S2097152_S2097152x1 := by
  show after hostOps0 (val 0 V0) _ = _; simp only [hostOps0]; after_results_simp; rfl

set_option maxHeartbeats 2000000 in
theorem val1_v45 (V0 : Valuation τ sig (Elt F)) :
    val 1 V0 (no_index (Proc.devRef .tc main_v45)) = shapeCast _ (fz (args V0)) shapeCasts_S2097152_S2097152x1 := by
  show after hostOps0 (val 0 V0) _ = _; simp only [hostOps0]; after_results_simp; rfl

set_option maxHeartbeats 2000000 in
theorem val1_v38 (V0 : Valuation τ sig (Elt F)) :
    val 1 V0 (no_index (Proc.devRef .tc main_v38)) = Host.floor (py (args V0)) := by
  show after hostOps0 (val 0 V0) _ = _; simp only [hostOps0]; after_results_simp; rfl

set_option maxHeartbeats 2000000 in
theorem val1_v39 (V0 : Valuation τ sig (Elt F)) :
    val 1 V0 (no_index (Proc.devRef .tc main_v39)) = Host.floor (pz (args V0)) := by
  show after hostOps0 (val 0 V0) _ = _; simp only [hostOps0]; after_results_simp; rfl

set_option maxHeartbeats 2000000 in
theorem val1_v46 (V0 : Valuation τ sig (Elt F)) :
    val 1 V0 (no_index (Proc.devRef .tc main_v46)) = fptosi 32 (Host.floor (px (args V0))) := by
  show after hostOps0 (val 0 V0) _ = _; simp only [hostOps0]; after_results_simp; rfl

theorem val1_c (V0 : Valuation τ sig (Elt F)) : val 1 V0 (no_index (Proc.devRef .tc main_c)) = constantI S_ 32 0#32 := by
  show after hostOps0 (val 0 V0) _ = _; simp only [hostOps0]; after_results_simp

theorem val1_c_10 (V0 : Valuation τ sig (Elt F)) : val 1 V0 (no_index (Proc.devRef .tc main_c_10)) = constantI S_ 32 159#32 := by
  show after hostOps0 (val 0 V0) _ = _; simp only [hostOps0]; after_results_simp

theorem val2_v47 (V0 : Valuation τ sig (Elt F)) : val 2 V0 (no_index (Proc.devRef .tc main_v47)) = x0 (args V0) := by
  show after hostOps0_1 (val 1 V0) _ = _
  simp only [hostOps0_1, TRef.unary, TRef.binary, TRef.ofBuf, TRef.toBuf, cast_eq]
  after_results_simp
  keep_down
  simp only [val1_v46, val1_c, val1_c_10]
  rfl

theorem val3_v48 (V0 : Valuation τ sig (Elt F)) : val 3 V0 (no_index (Proc.devRef .tc main_v48)) = fptosi 32 (Host.floor (py (args V0))) := by
  show after hostOps0_2 (val 2 V0) _ = _; simp only [hostOps0_2]; after_results_simp
  keep_down
  simp only [val1_v38]

theorem val3_c_11 (V0 : Valuation τ sig (Elt F)) : val 3 V0 (no_index (Proc.devRef .tc main_c_11)) = constantI S_ 32 0#32 := by
  show after hostOps0_2 (val 2 V0) _ = _; simp only [hostOps0_2]; after_results_simp

theorem val3_c_12 (V0 : Valuation τ sig (Elt F)) : val 3 V0 (no_index (Proc.devRef .tc main_c_12)) = constantI S_ 32 159#32 := by
  show after hostOps0_2 (val 2 V0) _ = _; simp only [hostOps0_2]; after_results_simp

theorem val4_v49 (V0 : Valuation τ sig (Elt F)) : val 4 V0 (no_index (Proc.devRef .tc main_v49)) = y0 (args V0) := by
  show after hostOps0_3 (val 3 V0) _ = _
  simp only [hostOps0_3, TRef.unary, TRef.binary, TRef.ofBuf, TRef.toBuf, cast_eq]
  after_results_simp
  keep_down
  simp only [val3_v48, val3_c_11, val3_c_12]
  rfl

theorem val5_v50 (V0 : Valuation τ sig (Elt F)) : val 5 V0 (no_index (Proc.devRef .tc main_v50)) = fptosi 32 (Host.floor (pz (args V0))) := by
  show after hostOps0_4 (val 4 V0) _ = _; simp only [hostOps0_4]; after_results_simp
  keep_down
  simp only [val1_v39]

theorem val5_c_13 (V0 : Valuation τ sig (Elt F)) : val 5 V0 (no_index (Proc.devRef .tc main_c_13)) = constantI S_ 32 0#32 := by
  show after hostOps0_4 (val 4 V0) _ = _; simp only [hostOps0_4]; after_results_simp

theorem val5_c_14 (V0 : Valuation τ sig (Elt F)) : val 5 V0 (no_index (Proc.devRef .tc main_c_14)) = constantI S_ 32 159#32 := by
  show after hostOps0_4 (val 4 V0) _ = _; simp only [hostOps0_4]; after_results_simp

theorem val6_v51 (V0 : Valuation τ sig (Elt F)) : val 6 V0 (no_index (Proc.devRef .tc main_v51)) = z0 (args V0) := by
  show after hostOps0_5 (val 5 V0) _ = _
  simp only [hostOps0_5, TRef.unary, TRef.binary, TRef.ofBuf, TRef.toBuf, cast_eq]
  after_results_simp
  keep_down
  simp only [val5_v50, val5_c_13, val5_c_14]
  rfl

theorem val7_v53 (V0 : Valuation τ sig (Elt F)) : val 7 V0 (no_index (Proc.devRef .tc main_v53)) = addi (x0 (args V0)) (ifill 1#32) := by
  show after hostOps0_6 (val 6 V0) _ = _; simp only [hostOps0_6]; after_results_simp
  keep_down
  simp only [val2_v47]
  rfl

theorem val7_c_16 (V0 : Valuation τ sig (Elt F)) : val 7 V0 (no_index (Proc.devRef .tc main_c_16)) = constantI S_ 32 0#32 := by
  show after hostOps0_6 (val 6 V0) _ = _; simp only [hostOps0_6]; after_results_simp

theorem val7_c_17 (V0 : Valuation τ sig (Elt F)) : val 7 V0 (no_index (Proc.devRef .tc main_c_17)) = constantI S_ 32 159#32 := by
  show after hostOps0_6 (val 6 V0) _ = _; simp only [hostOps0_6]; after_results_simp

theorem val8_v54 (V0 : Valuation τ sig (Elt F)) : val 8 V0 (no_index (Proc.devRef .tc main_v54)) = x1 (args V0) := by
  show after hostOps0_7 (val 7 V0) _ = _
  simp only [hostOps0_7, TRef.unary, TRef.binary, TRef.ofBuf, TRef.toBuf, cast_eq]
  after_results_simp
  keep_down
  simp only [val7_v53, val7_c_16, val7_c_17]
  rfl

theorem val9_v56 (V0 : Valuation τ sig (Elt F)) : val 9 V0 (no_index (Proc.devRef .tc main_v56)) = addi (y0 (args V0)) (ifill 1#32) := by
  show after hostOps0_8 (val 8 V0) _ = _; simp only [hostOps0_8]; after_results_simp
  keep_down
  simp only [val4_v49]
  rfl

theorem val9_c_19 (V0 : Valuation τ sig (Elt F)) : val 9 V0 (no_index (Proc.devRef .tc main_c_19)) = constantI S_ 32 0#32 := by
  show after hostOps0_8 (val 8 V0) _ = _; simp only [hostOps0_8]; after_results_simp

theorem val9_c_20 (V0 : Valuation τ sig (Elt F)) : val 9 V0 (no_index (Proc.devRef .tc main_c_20)) = constantI S_ 32 159#32 := by
  show after hostOps0_8 (val 8 V0) _ = _; simp only [hostOps0_8]; after_results_simp

theorem val10_v57 (V0 : Valuation τ sig (Elt F)) : val 10 V0 (no_index (Proc.devRef .tc main_v57)) = y1 (args V0) := by
  show after hostOps0_9 (val 9 V0) _ = _
  simp only [hostOps0_9, TRef.unary, TRef.binary, TRef.ofBuf, TRef.toBuf, cast_eq]
  after_results_simp
  keep_down
  simp only [val9_v56, val9_c_19, val9_c_20]
  rfl

theorem val11_v59 (V0 : Valuation τ sig (Elt F)) : val 11 V0 (no_index (Proc.devRef .tc main_v59)) = addi (z0 (args V0)) (ifill 1#32) := by
  show after hostOps0_10 (val 10 V0) _ = _; simp only [hostOps0_10]; after_results_simp
  keep_down
  simp only [val6_v51]
  rfl

theorem val11_c_22 (V0 : Valuation τ sig (Elt F)) : val 11 V0 (no_index (Proc.devRef .tc main_c_22)) = constantI S_ 32 0#32 := by
  show after hostOps0_10 (val 10 V0) _ = _; simp only [hostOps0_10]; after_results_simp

theorem val11_c_23 (V0 : Valuation τ sig (Elt F)) : val 11 V0 (no_index (Proc.devRef .tc main_c_23)) = constantI S_ 32 159#32 := by
  show after hostOps0_10 (val 10 V0) _ = _; simp only [hostOps0_10]; after_results_simp

theorem val12_v60 (V0 : Valuation τ sig (Elt F)) : val 12 V0 (no_index (Proc.devRef .tc main_v60)) = z1 (args V0) := by
  show after hostOps0_11 (val 11 V0) _ = _
  simp only [hostOps0_11, TRef.unary, TRef.binary, TRef.ofBuf, TRef.toBuf, cast_eq]
  after_results_simp
  keep_down
  simp only [val11_v59, val11_c_22, val11_c_23]
  rfl

end Cert.KernelIdeal.Host

end
-- ==== Proof.KerHostB.lean ====
import proofs.«109906_j49606872269475_1_alg».proof.Proof.KerHostA

-- The three weight columns and the eight corner lookups, as functions of the inputs.

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.Stages

variable {F : FTy → Type} [FloatOps F]

theorem val13_v62 (V0 : Valuation τ sig (Elt F)) : val 13 V0 (no_index (Proc.devRef .tc main_v62)) = gflat (F := F) (table (args V0)) := by
  show after hostOps0_12 (val 12 V0) _ = _; simp only [hostOps0_12]; after_results_simp
  keep_down
  simp only [val1_v0]
  rfl

theorem val13_v68 (V0 : Valuation τ sig (Elt F)) :
    val 13 V0 (no_index (Proc.devRef .tc main_v68)) = flatIdx (F := F) (z0 (args V0)) (y0 (args V0)) (x0 (args V0)) := by
  show after hostOps0_12 (val 12 V0) _ = _; simp only [hostOps0_12]; after_results_simp
  keep_down
  simp only [val6_v51, val4_v49, val2_v47]
  rfl

set_option maxHeartbeats 1000000 in
theorem val14_v69 (V0 : Valuation τ sig (Elt F)) :
    val 14 V0 (no_index (Proc.devRef .tc main_v69))
      = rowsAt (table (args V0)) (z0 (args V0)) (y0 (args V0)) (x0 (args V0)) := by
  show after hostOps0_13 (val 13 V0) _ = _
  simp only [hostOps0_13, TRef.unary, TRef.binary, TRef.ternary, TRef.nullary, TRef.ofBuf, TRef.toBuf, cast_eq]
  after_results_simp
  keep_down
  simp only [val13_v62, val13_v68]
  rfl

theorem val15_v75 (V0 : Valuation τ sig (Elt F)) :
    val 15 V0 (no_index (Proc.devRef .tc main_v75)) = flatIdx (F := F) (z0 (args V0)) (y0 (args V0)) (x1 (args V0)) := by
  show after hostOps0_14 (val 14 V0) _ = _; simp only [hostOps0_14]; after_results_simp
  keep_down
  simp only [val6_v51, val4_v49, val8_v54]
  rfl

set_option maxHeartbeats 1000000 in
theorem val16_v76 (V0 : Valuation τ sig (Elt F)) :
    val 16 V0 (no_index (Proc.devRef .tc main_v76))
      = rowsAt (table (args V0)) (z0 (args V0)) (y0 (args V0)) (x1 (args V0)) := by
  show after hostOps0_15 (val 15 V0) _ = _
  simp only [hostOps0_15, TRef.unary, TRef.binary, TRef.ternary, TRef.nullary, TRef.ofBuf, TRef.toBuf, cast_eq]
  after_results_simp
  keep_down
  simp only [val13_v62, val15_v75]
  rfl

theorem val17_v82 (V0 : Valuation τ sig (Elt F)) :
    val 17 V0 (no_index (Proc.devRef .tc main_v82)) = flatIdx (F := F) (z0 (args V0)) (y1 (args V0)) (x0 (args V0)) := by
  show after hostOps0_16 (val 16 V0) _ = _; simp only [hostOps0_16]; after_results_simp
  keep_down
  simp only [val6_v51, val10_v57, val2_v47]
  rfl

set_option maxHeartbeats 1000000 in
theorem val18_v83 (V0 : Valuation τ sig (Elt F)) :
    val 18 V0 (no_index (Proc.devRef .tc main_v83))
      = rowsAt (table (args V0)) (z0 (args V0)) (y1 (args V0)) (x0 (args V0)) := by
  show after hostOps0_17 (val 17 V0) _ = _
  simp only [hostOps0_17, TRef.unary, TRef.binary, TRef.ternary, TRef.nullary, TRef.ofBuf, TRef.toBuf, cast_eq]
  after_results_simp
  keep_down
  simp only [val13_v62, val17_v82]
  rfl

theorem val19_v89 (V0 : Valuation τ sig (Elt F)) :
    val 19 V0 (no_index (Proc.devRef .tc main_v89)) = flatIdx (F := F) (z0 (args V0)) (y1 (args V0)) (x1 (args V0)) := by
  show after hostOps0_18 (val 18 V0) _ = _; simp only [hostOps0_18]; after_results_simp
  keep_down
  simp only [val6_v51, val10_v57, val8_v54]
  rfl

set_option maxHeartbeats 1000000 in
theorem val20_v90 (V0 : Valuation τ sig (Elt F)) :
    val 20 V0 (no_index (Proc.devRef .tc main_v90))
      = rowsAt (table (args V0)) (z0 (args V0)) (y1 (args V0)) (x1 (args V0)) := by
  show after hostOps0_19 (val 19 V0) _ = _
  simp only [hostOps0_19, TRef.unary, TRef.binary, TRef.ternary, TRef.nullary, TRef.ofBuf, TRef.toBuf, cast_eq]
  after_results_simp
  keep_down
  simp only [val13_v62, val19_v89]
  rfl

theorem val21_v96 (V0 : Valuation τ sig (Elt F)) :
    val 21 V0 (no_index (Proc.devRef .tc main_v96)) = flatIdx (F := F) (z1 (args V0)) (y0 (args V0)) (x0 (args V0)) := by
  show after hostOps0_20 (val 20 V0) _ = _; simp only [hostOps0_20]; after_results_simp
  keep_down
  simp only [val12_v60, val4_v49, val2_v47]
  rfl

set_option maxHeartbeats 1000000 in
theorem val22_v97 (V0 : Valuation τ sig (Elt F)) :
    val 22 V0 (no_index (Proc.devRef .tc main_v97))
      = rowsAt (table (args V0)) (z1 (args V0)) (y0 (args V0)) (x0 (args V0)) := by
  show after hostOps0_21 (val 21 V0) _ = _
  simp only [hostOps0_21, TRef.unary, TRef.binary, TRef.ternary, TRef.nullary, TRef.ofBuf, TRef.toBuf, cast_eq]
  after_results_simp
  keep_down
  simp only [val13_v62, val21_v96]
  rfl

theorem val23_v103 (V0 : Valuation τ sig (Elt F)) :
    val 23 V0 (no_index (Proc.devRef .tc main_v103)) = flatIdx (F := F) (z1 (args V0)) (y0 (args V0)) (x1 (args V0)) := by
  show after hostOps0_22 (val 22 V0) _ = _; simp only [hostOps0_22]; after_results_simp
  keep_down
  simp only [val12_v60, val4_v49, val8_v54]
  rfl

set_option maxHeartbeats 1000000 in
theorem val24_v104 (V0 : Valuation τ sig (Elt F)) :
    val 24 V0 (no_index (Proc.devRef .tc main_v104))
      = rowsAt (table (args V0)) (z1 (args V0)) (y0 (args V0)) (x1 (args V0)) := by
  show after hostOps0_23 (val 23 V0) _ = _
  simp only [hostOps0_23, TRef.unary, TRef.binary, TRef.ternary, TRef.nullary, TRef.ofBuf, TRef.toBuf, cast_eq]
  after_results_simp
  keep_down
  simp only [val13_v62, val23_v103]
  rfl

theorem val25_v110 (V0 : Valuation τ sig (Elt F)) :
    val 25 V0 (no_index (Proc.devRef .tc main_v110)) = flatIdx (F := F) (z1 (args V0)) (y1 (args V0)) (x0 (args V0)) := by
  show after hostOps0_24 (val 24 V0) _ = _; simp only [hostOps0_24]; after_results_simp
  keep_down
  simp only [val12_v60, val10_v57, val2_v47]
  rfl

set_option maxHeartbeats 1000000 in
theorem val26_v111 (V0 : Valuation τ sig (Elt F)) :
    val 26 V0 (no_index (Proc.devRef .tc main_v111))
      = rowsAt (table (args V0)) (z1 (args V0)) (y1 (args V0)) (x0 (args V0)) := by
  show after hostOps0_25 (val 25 V0) _ = _
  simp only [hostOps0_25, TRef.unary, TRef.binary, TRef.ternary, TRef.nullary, TRef.ofBuf, TRef.toBuf, cast_eq]
  after_results_simp
  keep_down
  simp only [val13_v62, val25_v110]
  rfl

theorem val27_v117 (V0 : Valuation τ sig (Elt F)) :
    val 27 V0 (no_index (Proc.devRef .tc main_v117)) = flatIdx (F := F) (z1 (args V0)) (y1 (args V0)) (x1 (args V0)) := by
  show after hostOps0_26 (val 26 V0) _ = _; simp only [hostOps0_26]; after_results_simp
  keep_down
  simp only [val12_v60, val10_v57, val8_v54]
  rfl

set_option maxHeartbeats 1000000 in
theorem val28_v118 (V0 : Valuation τ sig (Elt F)) :
    val 28 V0 (no_index (Proc.devRef .tc main_v118))
      = rowsAt (table (args V0)) (z1 (args V0)) (y1 (args V0)) (x1 (args V0)) := by
  show after hostOps0_27 (val 27 V0) _ = _
  simp only [hostOps0_27, TRef.unary, TRef.binary, TRef.ternary, TRef.nullary, TRef.ofBuf, TRef.toBuf, cast_eq]
  after_results_simp
  keep_down
  simp only [val13_v62, val27_v117]
  rfl

variable (m : (ℓ : Loc nD τ sig) → Buf (Elt F) ℓ)

abbrev launch (c : Dev nD) : Valuation τ sig (Elt F) := fun b => m (c, b)

abbrev inputs (c : Dev nD) : Args F := args (launch m c)

theorem V_eq (c : Dev nD) (b : Ref sig .tc) : V m c b = val 28 (launch m c) (Proc.devRef .tc b) :=
  congrFun (after_all (launch m c)) (Proc.devRef .tc b)

theorem win0 (c : Dev nD) : V m c main_v41 = shapeCast _ (fx (inputs m c)) shapeCasts_S2097152_S2097152x1 := by
  rw [V_eq]; keep_down; exact val1_v41 _

theorem win1 (c : Dev nD) : V m c main_v43 = shapeCast _ (fy (inputs m c)) shapeCasts_S2097152_S2097152x1 := by
  rw [V_eq]; keep_down; exact val1_v43 _

theorem win2 (c : Dev nD) : V m c main_v45 = shapeCast _ (fz (inputs m c)) shapeCasts_S2097152_S2097152x1 := by
  rw [V_eq]; keep_down; exact val1_v45 _

theorem win3 (c : Dev nD) : V m c main_v69 = rowsAt (table (inputs m c)) (z0 (inputs m c)) (y0 (inputs m c)) (x0 (inputs m c)) := by
  rw [V_eq]; keep_down; exact val14_v69 _

theorem win4 (c : Dev nD) : V m c main_v76 = rowsAt (table (inputs m c)) (z0 (inputs m c)) (y0 (inputs m c)) (x1 (inputs m c)) := by
  rw [V_eq]; keep_down; exact val16_v76 _

theorem win5 (c : Dev nD) : V m c main_v83 = rowsAt (table (inputs m c)) (z0 (inputs m c)) (y1 (inputs m c)) (x0 (inputs m c)) := by
  rw [V_eq]; keep_down; exact val18_v83 _

theorem win6 (c : Dev nD) : V m c main_v90 = rowsAt (table (inputs m c)) (z0 (inputs m c)) (y1 (inputs m c)) (x1 (inputs m c)) := by
  rw [V_eq]; keep_down; exact val20_v90 _

theorem win7 (c : Dev nD) : V m c main_v97 = rowsAt (table (inputs m c)) (z1 (inputs m c)) (y0 (inputs m c)) (x0 (inputs m c)) := by
  rw [V_eq]; keep_down; exact val22_v97 _

theorem win8 (c : Dev nD) : V m c main_v104 = rowsAt (table (inputs m c)) (z1 (inputs m c)) (y0 (inputs m c)) (x1 (inputs m c)) := by
  rw [V_eq]; keep_down; exact val24_v104 _

theorem win9 (c : Dev nD) : V m c main_v111 = rowsAt (table (inputs m c)) (z1 (inputs m c)) (y1 (inputs m c)) (x0 (inputs m c)) := by
  rw [V_eq]; keep_down; exact val26_v111 _

theorem win10 (c : Dev nD) : V m c main_v118 = rowsAt (table (inputs m c)) (z1 (inputs m c)) (y1 (inputs m c)) (x1 (inputs m c)) := by
  rw [V_eq]; keep_down; exact val28_v118 _

end Cert.KernelIdeal.Host

end
-- ==== Proof.LibGatherRows.lean ====
import Idealize.ShloMosaic.PureOps.ShapeOps
import Idealize.ShloMosaic.Lib.ValueIdx

-- A gather of whole rows of a matrix, read at an index.

namespace Idealize.ShloMosaic.GatherRows

open Idealize.ShloMosaic Idealize.ShloMosaic.ValueIdx

variable {α : Type}

abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

abbrev rowIdx {R : Nat} (e : Fin R) : (⟨2, ![R, 1]⟩ : Shape).Idx := ix2 e (0 : Fin 1)

section
variable {N R C w : Nat} (wf : GatherDims.WF ⟨2, ![N, C]⟩ ⟨2, ![R, 1]⟩ ⟨2, ![R, C]⟩ [1] [0] [] [0] [] 1 ![1, C])

theorem row_not_kept : (0 : Fin 2) ∉ (rowDims N R C wf).sKept :=
  fun h => ((GatherDims.mem_sKept _ _).mp h).1 (List.mem_singleton.mpr rfl)

theorem col_kept : (1 : Fin 2) ∈ (rowDims N R C wf).sKept :=
  (GatherDims.mem_sKept _ _).mpr ⟨fun h => absurd (congrArg Fin.val (List.mem_singleton.mp h)) Nat.one_ne_zero, List.not_mem_nil⟩

theorem operandIdx_row (idx : IVec ⟨2, ![R, 1]⟩ w) (e : Fin R) (q : Fin C) :
    ((rowDims N R C wf).operandIdx (ix2 e q) idx 0).val = min (idx (rowIdx e)).toInt.toNat (N - 1) := by
  show (rowDims N R C wf).start (ix2 e q) idx 0 + (rowDims N R C wf).batchCoord (ix2 e q) 0
    + (rowDims N R C wf).offCoord (ix2 e q) 0 = _
  rw [GatherDims.batchCoord_eq_zero _ _ _ List.not_mem_nil, GatherDims.offCoord_eq_zero _ _ _ (row_not_kept wf)]
  simp only [Nat.add_zero]
  unfold GatherDims.start
  rw [dif_pos (show (0 : Fin 2) ∈ (rowDims N R C wf).startIndexMap from List.mem_singleton.mpr rfl)]
  have hsi : (rowDims N R C wf).siIdx (ix2 e q) ⟨List.idxOf (0 : Fin 2) (rowDims N R C wf).startIndexMap,
      List.idxOf_lt_length_iff.2 (List.mem_singleton.mpr rfl)⟩ = rowIdx e := by
    funext b; refine Fin.ext ?_
    match b with
    | ⟨0, _⟩ => rfl
    | ⟨1, _⟩ => rfl
  rw [hsi]
  rfl

theorem operandIdx_col (idx : IVec ⟨2, ![R, 1]⟩ w) (e : Fin R) (q : Fin C) :
    ((rowDims N R C wf).operandIdx (ix2 e q) idx 1).val = q.val := by
  show (rowDims N R C wf).start (ix2 e q) idx 1 + (rowDims N R C wf).batchCoord (ix2 e q) 1
    + (rowDims N R C wf).offCoord (ix2 e q) 1 = _
  rw [GatherDims.batchCoord_eq_zero _ _ _ List.not_mem_nil]
  unfold GatherDims.start
  rw [dif_neg (show (1 : Fin 2) ∉ (rowDims N R C wf).startIndexMap from
    fun h => absurd (congrArg Fin.val (List.mem_singleton.mp h)) Nat.one_ne_zero)]
  unfold GatherDims.offCoord
  rw [dif_pos (col_kept wf)]
  simp only [Nat.add_zero, Nat.zero_add]
  rfl

theorem gather_rows_apply (hN : 0 < N) (x : (⟨2, ![N, C]⟩ : Shape).Idx → α) (idx : IVec ⟨2, ![R, 1]⟩ w)
    (e : Fin R) (q : Fin C) :
    Host.gather (rowDims N R C wf) x idx (ix2 e q)
      = x (ix2 ⟨min (idx (rowIdx e)).toInt.toNat (N - 1), by omega⟩ q) := by
  unfold Host.gather
  congr 1
  funext a
  refine Fin.ext ?_
  match a with
  | ⟨0, _⟩ => exact operandIdx_row wf idx e q
  | ⟨1, _⟩ => exact operandIdx_col wf idx e q

theorem gather_rows_apply_of_lt (x : (⟨2, ![N, C]⟩ : Shape).Idx → α) (idx : IVec ⟨2, ![R, 1]⟩ w)
    (e : Fin R) (q : Fin C) (h0 : 0 ≤ (idx (rowIdx e)).toInt) (hlt : (idx (rowIdx e)).toInt < N) :
    Host.gather (rowDims N R C wf) x idx (ix2 e q) = x (ix2 ⟨(idx (rowIdx e)).toInt.toNat, by omega⟩ q) := by
  rw [gather_rows_apply wf (by omega) x idx e q]
  congr 2
  refine Fin.ext ?_
  show min (idx (rowIdx e)).toInt.toNat (N - 1) = (idx (rowIdx e)).toInt.toNat
  omega

end

end Idealize.ShloMosaic.GatherRows
-- ==== Proof.LibChannelsLast.lean ====
import Idealize.ShloMosaic.Lib.Pipeline.Value
import Idealize.ShloMosaic.Lib.ValueIdx

-- [12, 160, 160, 160] transposed to channels-last and flattened to [4096000, 12]: entry (i, c) is g (c, i / 25600, i / 160 % 160, i % 160).

namespace Idealize.ShloMosaic.ChannelsLast

open Idealize.ShloMosaic Idealize.ShloMosaic.ValueIdx

abbrev Sg : Shape := ⟨4, ![12, 160, 160, 160]⟩

abbrev St : Shape := ⟨4, ![160, 160, 160, 12]⟩

abbrev Sf : Shape := ⟨2, ![4096000, 12]⟩

theorem digits_lt (i : Fin 4096000) : i.val / 25600 < 160 ∧ i.val / 160 % 160 < 160 ∧ i.val % 160 < 160 := by
  have hi : i.val < 4096000 := i.isLt
  omega

theorem digits_sum (n : Nat) (hn : n < 4096000) : (n / 25600 * 160 + n / 160 % 160) * 160 + n % 160 = n := by
  omega

theorem flat_channels_last_apply {α : Type} (g : Sg.Idx → α) (ht : Sg.Transposes [1, 2, 3, 0] St) (hc : St.ShapeCasts Sf)
    (i : Fin 4096000) (c : Fin 12) :
    shapeCast Sf (transpose St [1, 2, 3, 0] g ht) hc (ix2 i c)
      = g (ix4 c ⟨i.val / 25600, by omega⟩ ⟨i.val / 160 % 160, by omega⟩ ⟨i.val % 160, by omega⟩) := by
  refine (shapeCast_apply (transpose St [1, 2, 3, 0] g ht) hc (ix2 i c)
    (ix4 ⟨i.val / 25600, (digits_lt i).1⟩ ⟨i.val / 160 % 160, (digits_lt i).2.1⟩ ⟨i.val % 160, (digits_lt i).2.2⟩ c) ?_).trans ?_
  · rewrite [Shape.rowMajor_val_four, Shape.rowMajor_val_two]
    show ((i.val / 25600 * 160 + i.val / 160 % 160) * 160 + i.val % 160) * 12 + c.val = i.val * 12 + c.val
    rw [digits_sum i.val i.isLt]

  · exact transpose_apply [1, 2, 3, 0] g ht _ _ (fun b => match b with
      | ⟨0, _⟩ => rfl
      | ⟨1, _⟩ => rfl
      | ⟨2, _⟩ => rfl
      | ⟨3, _⟩ => rfl)

end Idealize.ShloMosaic.ChannelsLast
-- ==== Proof.KerTake.lean ====
import proofs.«109906_j49606872269475_1_alg».proof.Proof.KerStageDefs
import proofs.«109906_j49606872269475_1_alg».proof.Proof.Spec
import proofs.«109906_j49606872269475_1_alg».proof.Proof.LibGatherRows
import proofs.«109906_j49606872269475_1_alg».proof.Proof.LibIntIndex
import proofs.«109906_j49606872269475_1_alg».proof.Proof.LibChannelsLast

-- Row z · 25600 + y · 160 + x of the flattened channels-last table, for nodes z, y, x in [0, 159]: the row is in range, so
-- the lookup's bounds test passes and nothing is clamped, and the row decodes back to (z, y, x).

noncomputable section

namespace Cert.KernelIdeal.Host

open Cert.KernelIdeal Cert.KernelIdeal.Gen Idealize.ShloMosaic Idealize.ShloMosaic.TcCoe Idealize.ShloMosaic.ValueIdx

variable {F : FTy → Type} [FloatOps F]

theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_one f l _ ?_ (fun n hn => hl n (List.mem_cons_of_mem _ hn))
    show IntOp.andi init (f a) = 1#1
    rw [hi, hl a List.mem_cons_self]
    exact IntIndex.andi_one_one

theorem flatIdx_apply (z y x : (⟨S2097152, .i32⟩ : BufTy).Contents (Elt F)) (i : S2097152.Idx) :
    flatIdx (F := F) z y x i = IntOp.addi (IntOp.addi (IntOp.muli (z i) 25600#32) (IntOp.muli (y i) 160#32)) (x i) := rfl

theorem wrapIdx_apply_of_nonneg (idx : (⟨S2097152, .i32⟩ : BufTy).Contents (Elt F)) (n : Fin 2097152)
    (h : 0 ≤ (idx (ix1 n)).toInt) : wrapIdx (F := F) idx (ix2 n (0 : Fin 1)) = idx (ix1 n) := by
  unfold wrapIdx
  refine (broadcastInDim_apply _ bcast_S2097152_S2097152x1_0 _ (ix2 n (0 : Fin 1)) (ix1 n) (fun a => match a with
    | ⟨0, _⟩ => by show n.val = if (2097152 : Nat) = 1 then 0 else n.val; rw [if_neg (by decide)])).trans ?_
  show Scalar.select (IntOp.cmpi .slt (idx (ix1 n)) 0#32) (IntOp.addi (idx (ix1 n)) 4096000#32) (idx (ix1 n)) = idx (ix1 n)
  rw [IntIndex.cmpi_slt_zero _ h, select_zero]

theorem inRows_eq_one (j : (⟨S2097152x1, .i32⟩ : BufTy).Contents (Elt F)) (n : Fin 2097152)
    (h0 : 0 ≤ (j (ix2 n (0 : Fin 1))).toInt) (h1 : (j (ix2 n (0 : Fin 1))).toInt ≤ 4095999) :
    inRows (F := F) j (ix1 n) = 1#1 := by
  unfold inRows
  rw [Host.reduce_eq_foldl]
  refine foldl_andi_one _ _ _ rfl ?_
  intro i hi
  have hd : reducesTo_S2097152x1_S2097152_d1.drop i = ix1 n := of_decide_eq_true (List.mem_filter.1 hi).2

  have hv : ((reducesTo_S2097152x1_S2097152_d1.drop i) 0 : Nat) = (i 0 : Nat) :=
    Shape.ReducesTo.drop_apply_val reducesTo_S2097152x1_S2097152_d1 i 0
  rw [hd] at hv
  have hi' : i = ix2 n (0 : Fin 1) := by
    funext a
    match a with
    | ⟨0, _⟩ => exact Fin.ext hv.symm
    | ⟨1, _⟩ => exact Subsingleton.elim (α := Fin 1) _ _
  subst hi'
  show IntOp.andi (IntOp.cmpi .sge (j (ix2 n (0 : Fin 1))) 0#32) (IntOp.cmpi .sle (j (ix2 n (0 : Fin 1))) 4095999#32) = 1#1
  rw [IntIndex.cmpi_sge_zero _ h0, IntIndex.cmpi_sle_of_le _ _ (by rw [IntIndex.toInt_last]; exact h1), IntIndex.andi_one_one]

theorem takeRows_apply_of_mem (tbl : (⟨S4096000x12, .f32⟩ : BufTy).Contents (Elt F))
    (idx : (⟨S2097152, .i32⟩ : BufTy).Contents (Elt F)) (n : Fin 2097152) (c : Fin 12)
    (h0 : 0 ≤ (idx (ix1 n)).toInt) (hlt : (idx (ix1 n)).toInt < 4096000) :
    takeRows (F := F) tbl idx (ix2 n c) = tbl (ix2 ⟨(idx (ix1 n)).toInt.toNat, by omega⟩ c) := by
  have hw := wrapIdx_apply_of_nonneg (F := F) idx n h0
  unfold takeRows
  rw [select_apply]

  have hm : broadcastInDim S2097152x12 ![0] bcast_S2097152_S2097152x12_0 (inRows (F := F) (wrapIdx (F := F) idx)) (ix2 n c) = 1#1 := by
    refine (broadcastInDim_apply _ bcast_S2097152_S2097152x12_0 _ (ix2 n c) (ix1 n) (fun a => match a with
      | ⟨0, _⟩ => by show n.val = if (2097152 : Nat) = 1 then 0 else n.val; rw [if_neg (by decide)])).trans ?_
    exact inRows_eq_one _ n (by rw [hw]; exact h0) (by rw [hw]; omega)
  rw [hm, select_one]
  show Host.gather (GatherRows.rowDims 4096000 2097152 12 _) tbl (wrapIdx (F := F) idx) (ix2 n c) = _
  refine (GatherRows.gather_rows_apply_of_lt _ tbl (wrapIdx (F := F) idx) n c
    (by show 0 ≤ (wrapIdx (F := F) idx (ix2 n (0 : Fin 1))).toInt; rw [hw]; exact h0)
    (by show (wrapIdx (F := F) idx (ix2 n (0 : Fin 1))).toInt < ((4096000 : Nat) : Int); rw [hw]; omega)).trans ?_
  exact congrArg (fun r => tbl (ix2 r c)) (Fin.ext (by
    show (wrapIdx (F := F) idx (ix2 n (0 : Fin 1))).toInt.toNat = (idx (ix1 n)).toInt.toNat
    rw [hw]))

theorem take_flat_apply (g : (⟨S12x160x160x160, .f32⟩ : BufTy).Contents (Elt F))
    (z y x : (⟨S2097152, .i32⟩ : BufTy).Contents (Elt F)) (n : Fin 2097152) (c : Fin 12)
    (hz : 0 ≤ (z (ix1 n)).toInt ∧ (z (ix1 n)).toInt ≤ 159) (hy : 0 ≤ (y (ix1 n)).toInt ∧ (y (ix1 n)).toInt ≤ 159)
    (hx : 0 ≤ (x (ix1 n)).toInt ∧ (x (ix1 n)).toInt ≤ 159) :
    rowsAt (F := F) g z y x (ix2 n c) = Cert.Spec.corner (F := F) g z y x n c := by
  unfold rowsAt
  have hf := flatIdx_apply (F := F) z y x (ix1 n)
  have h0 : 0 ≤ (flatIdx (F := F) z y x (ix1 n)).toInt := by
    rw [hf]; exact IntIndex.flat_nonneg _ _ _ hz.1 hz.2 hy.1 hy.2 hx.1 hx.2
  have hlt : (flatIdx (F := F) z y x (ix1 n)).toInt < 4096000 := by
    rw [hf]; exact IntIndex.flat_lt _ _ _ hz.1 hz.2 hy.1 hy.2 hx.1 hx.2

  have hN : (flatIdx (F := F) z y x (ix1 n)).toInt.toNat
      = (z (ix1 n)).toInt.toNat * 25600 + (y (ix1 n)).toInt.toNat * 160 + (x (ix1 n)).toInt.toNat := by
    rw [hf]; exact IntIndex.flat_toInt_toNat _ _ _ hz.1 hz.2 hy.1 hy.2 hx.1 hx.2
  obtain ⟨d1, d2, d3⟩ := IntIndex.flat_decode _ _ _ (IntIndex.toInt_toNat_le _ hz.1 hz.2)
    (IntIndex.toInt_toNat_le _ hy.1 hy.2) (IntIndex.toInt_toNat_le _ hx.1 hx.2)
  rw [takeRows_apply_of_mem (F := F) _ _ n c h0 hlt]
  unfold gflat
  rw [ChannelsLast.flat_channels_last_apply]
  unfold Cert.Spec.corner Cert.Spec.pos
  refine congrArg g ?_
  funext a
  match a with
  | ⟨0, _⟩ => rfl
  | ⟨1, _⟩ =>
    exact Fin.ext (by
      show (flatIdx (F := F) z y x (ix1 n)).toInt.toNat / 25600 = min (z (ix1 n)).toInt.toNat 159
      rw [hN, d1, IntIndex.min_toInt_toNat _ hz.1 hz.2])
  | ⟨2, _⟩ =>
    exact Fin.ext (by
      show (flatIdx (F := F) z y x (ix1 n)).toInt.toNat / 160 % 160 = min (y (ix1 n)).toInt.toNat 159
      rw [hN, d2, IntIndex.min_toInt_toNat _ hy.1 hy.2])
  | ⟨3, _⟩ =>
    exact Fin.ext (by
      show (flatIdx (F := F) z y x (ix1 n)).toInt.toNat % 160 = min (x (ix1 n)).toInt.toNat 159
      rw [hN, d3, IntIndex.min_toInt_toNat _ hx.1 hx.2])

end Cert.KernelIdeal.Host

end
-- ==== Proof.KerValue.lean ====
import proofs.«109906_j49606872269475_1_alg».proof.Proof.Gen.KernelIdeal.Value
import proofs.«109906_j49606872269475_1_alg».proof.Proof.KerHostB
import proofs.«109906_j49606872269475_1_alg».proof.Proof.KerTake
import proofs.«109906_j49606872269475_1_alg».proof.Proof.Spec
import Idealize.ShloMosaic.Lib.Pipeline.Value
import Idealize.ShloMosaic.Lib.ValueIdx
import Idealize.ShloMosaic.Lib.ValueLayout

-- The kernel's result, entry by entry. Rows 32768 · t … 32768 · t + 32767 form block t; every entry of a block is the
-- eight-corner sum of the entries at the same place; the 64 blocks partition the rows.

set_option maxRecDepth 8192

noncomputable section

namespace Cert.KernelIdeal.KerValue

open Cert.KernelIdeal Cert.KernelIdeal.Gen Cert.KernelIdeal.Host Idealize.ShloMosaic Idealize.ShloMosaic.TcCoe Idealize.SL.Sem
open Idealize.ShloMosaic.ValueIdx
open Idealize.ShloMosaic.Pipeline (Dat)
open Cert.KernelIdeal.Value (E11)
open Cert.ReferenceIdeal.Stages (Args table fx fy fz x0 y0 z0 x1 y1 z1)

variable {F : FTy → Type} [FloatOps F]

theorem zero_offsets : (![0, 0] : Fin 2 → Nat) = fun _ => 0 := funext fun a => by fin_cases a <;> rfl

theorem block_index : ∀ t : Fin cfg0.N, t.val < 64
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

abbrev colOf (y : S32768x12.Idx) : S32768x1.Idx := fun a => match a with
  | ⟨0, _⟩ => ⟨(y 0).val, by have hy0 : (y 0).val < 32768 := (y 0).isLt; show (y 0).val < 32768; omega⟩
  | ⟨1, _⟩ => ⟨0, by show 0 < 1; omega⟩

def mix (a000 a001 a010 a011 a100 a101 a110 a111 wz wy wx : F .f32) : F .f32 :=
  FloatOps.addf (FloatOps.addf (FloatOps.addf (FloatOps.addf (FloatOps.addf (FloatOps.addf (FloatOps.addf
    (FloatOps.mulf a000 (Cert.Spec.weight (Cert.Spec.lower wz) (Cert.Spec.lower wy) (Cert.Spec.lower wx)))
    (FloatOps.mulf a001 (Cert.Spec.weight (Cert.Spec.lower wz) (Cert.Spec.lower wy) wx)))
    (FloatOps.mulf a010 (Cert.Spec.weight (Cert.Spec.lower wz) wy (Cert.Spec.lower wx))))
    (FloatOps.mulf a011 (Cert.Spec.weight (Cert.Spec.lower wz) wy wx)))
    (FloatOps.mulf a100 (Cert.Spec.weight wz (Cert.Spec.lower wy) (Cert.Spec.lower wx))))
    (FloatOps.mulf a101 (Cert.Spec.weight wz (Cert.Spec.lower wy) wx)))
    (FloatOps.mulf a110 (Cert.Spec.weight wz wy (Cert.Spec.lower wx))))
    (FloatOps.mulf a111 (Cert.Spec.weight wz wy wx))

theorem tri_eq_mix (g : Vec F Cert.Spec.SG .f32) (fx fy fz : Vec F Cert.Spec.SN .f32) (x0 y0 z0 x1 y1 z1 : IVec Cert.Spec.SN 32)
    (n : Fin 2097152) (q : Fin 12) :
    Cert.Spec.tri g fx fy fz x0 y0 z0 x1 y1 z1 n q
      = mix (Cert.Spec.corner g z0 y0 x0 n q) (Cert.Spec.corner g z0 y0 x1 n q) (Cert.Spec.corner g z0 y1 x0 n q)
          (Cert.Spec.corner g z0 y1 x1 n q) (Cert.Spec.corner g z1 y0 x0 n q) (Cert.Spec.corner g z1 y0 x1 n q)
          (Cert.Spec.corner g z1 y1 x0 n q) (Cert.Spec.corner g z1 y1 x1 n q) (fz (ix1 n)) (fy (ix1 n)) (fx (ix1 n)) := rfl

theorem combine_apply (P0 : Vec F S32768x12 .f32) (P1 P2 P3 : Vec F S32768x1 .f32)
    (P4 P5 P6 P7 P8 P9 P10 : Vec F S32768x12 .f32) (y : S32768x12.Idx) :
    E11 P0 P1 P2 P3 P4 P5 P6 P7 P8 P9 P10 y
      = mix (P0 y) (P4 y) (P5 y) (P6 y) (P7 y) (P8 y) (P9 y) (P10 y) (P1 (colOf y)) (P2 (colOf y)) (P3 (colOf y)) := by
  have wide : ∀ k : S32768x12.Idx, (k 0).val = (y 0).val → (k 1).val = (y 1).val → k = y := fun k h0 h1 =>
    funext fun a => match a with | ⟨0, _⟩ => Fin.ext h0 | ⟨1, _⟩ => Fin.ext h1
  have col : ∀ k : S32768x1.Idx, (k 0).val = (y 0).val → k = colOf y := fun k h0 =>
    funext fun a => match a with | ⟨0, _⟩ => Fin.ext h0 | ⟨1, _⟩ => Subsingleton.elim (α := Fin 1) _ _
  unfold E11 mix Cert.Spec.weight Cert.Spec.lower
  rw [wide (Value.ix11_0 y) rfl rfl, col (Value.ix11_1 y) rfl, col (Value.ix11_2 y) rfl, col (Value.ix11_3 y) rfl, wide (Value.ix11_4 y) rfl rfl, col (Value.ix11_5 y) rfl, col (Value.ix11_6 y) rfl, col (Value.ix11_7 y) rfl,
    wide (Value.ix11_8 y) rfl rfl, col (Value.ix11_9 y) rfl, col (Value.ix11_10 y) rfl, col (Value.ix11_11 y) rfl, wide (Value.ix11_12 y) rfl rfl, col (Value.ix11_13 y) rfl, col (Value.ix11_14 y) rfl, col (Value.ix11_15 y) rfl,
    wide (Value.ix11_16 y) rfl rfl, col (Value.ix11_17 y) rfl, col (Value.ix11_18 y) rfl, col (Value.ix11_19 y) rfl, wide (Value.ix11_20 y) rfl rfl, col (Value.ix11_21 y) rfl, col (Value.ix11_22 y) rfl, col (Value.ix11_23 y) rfl,
    wide (Value.ix11_24 y) rfl rfl, col (Value.ix11_25 y) rfl, col (Value.ix11_26 y) rfl, col (Value.ix11_27 y) rfl, wide (Value.ix11_28 y) rfl rfl, col (Value.ix11_29 y) rfl, col (Value.ix11_30 y) rfl, col (Value.ix11_31 y) rfl]

theorem body_block (x0 x1 x2 : Vec F S32768x1 .f32) (x3 x4 x5 x6 x7 x8 x9 x10 : Vec F S32768x12 .f32) :
    out0_11 x0 x1 x2 x3 x4 x5 x6 x7 x8 x9 x10 = E11 x3 x2 x1 x0 x4 x5 x6 x7 x8 x9 x10 := by
  unfold out0_11
  simp only [View.ld_unit_zero (S := S32768x1) zero_offsets, View.ld_unit_zero (S := S32768x12) zero_offsets]
  funext y
  exact Value.canon11_eq x3 x2 x1 x0 x4 x5 x6 x7 x8 x9 x10 y

theorem column_apply (v : S2097152.Idx → Elt F .f32) (n : Fin 2097152) :
    shapeCast S2097152x1 v shapeCasts_S2097152_S2097152x1 (ix2 n (0 : Fin 1)) = v (ix1 n) := by
  refine shapeCast_apply v _ (ix2 n (0 : Fin 1)) (ix1 n) ?_
  rw [Shape.rowMajor_val_one, Shape.rowMajor_val_two]
  show n.val = n.val * 1 + 0
  omega

theorem window0_read (A : S2097152x1.Idx → Elt F .f32) (t : Fin cfg0.N) (k : S32768x1.Idx) (n : Fin 2097152)
    (hn : n.val = 32768 * t.val + (k 0).val) :
    ((cfg0.win 0).blk t).view.read (Elt F) A k = A (ix2 n (0 : Fin 1)) := by
  obtain ⟨-, ⟨e0, e1⟩, -, -, -, -, -, -, -, -, -, -, -⟩ := block_index t
  have hk1 : (k 1).val < 1 := (k 1).isLt
  have hk : ((cfg0.win 0).blk t).view.emb k = ix2 n (0 : Fin 1) := by
    funext a; apply Fin.ext
    match a with
    | ⟨0, _⟩ => show win0_0.index t (0 : Fin 2) * 32768 + 1 * (k 0).val = n.val; rw [e0, hn]; omega
    | ⟨1, _⟩ => show win0_0.index t (1 : Fin 2) * 1 + 1 * (k 1).val = 0; rw [e1]; omega
  show A (((cfg0.win 0).blk t).view.emb k) = A (ix2 n (0 : Fin 1))
  rw [hk]

theorem window1_read (A : S2097152x1.Idx → Elt F .f32) (t : Fin cfg0.N) (k : S32768x1.Idx) (n : Fin 2097152)
    (hn : n.val = 32768 * t.val + (k 0).val) :
    ((cfg0.win 1).blk t).view.read (Elt F) A k = A (ix2 n (0 : Fin 1)) := by
  obtain ⟨-, -, ⟨e0, e1⟩, -, -, -, -, -, -, -, -, -, -⟩ := block_index t
  have hk1 : (k 1).val < 1 := (k 1).isLt
  have hk : ((cfg0.win 1).blk t).view.emb k = ix2 n (0 : Fin 1) := by
    funext a; apply Fin.ext
    match a with
    | ⟨0, _⟩ => show win0_1.index t (0 : Fin 2) * 32768 + 1 * (k 0).val = n.val; rw [e0, hn]; omega
    | ⟨1, _⟩ => show win0_1.index t (1 : Fin 2) * 1 + 1 * (k 1).val = 0; rw [e1]; omega
  show A (((cfg0.win 1).blk t).view.emb k) = A (ix2 n (0 : Fin 1))
  rw [hk]

theorem window2_read (A : S2097152x1.Idx → Elt F .f32) (t : Fin cfg0.N) (k : S32768x1.Idx) (n : Fin 2097152)
    (hn : n.val = 32768 * t.val + (k 0).val) :
    ((cfg0.win 2).blk t).view.read (Elt F) A k = A (ix2 n (0 : Fin 1)) := by
  obtain ⟨-, -, -, ⟨e0, e1⟩, -, -, -, -, -, -, -, -, -⟩ := block_index t
  have hk1 : (k 1).val < 1 := (k 1).isLt
  have hk : ((cfg0.win 2).blk t).view.emb k = ix2 n (0 : Fin 1) := by
    funext a; apply Fin.ext
    match a with
    | ⟨0, _⟩ => show win0_2.index t (0 : Fin 2) * 32768 + 1 * (k 0).val = n.val; rw [e0, hn]; omega
    | ⟨1, _⟩ => show win0_2.index t (1 : Fin 2) * 1 + 1 * (k 1).val = 0; rw [e1]; omega
  show A (((cfg0.win 2).blk t).view.emb k) = A (ix2 n (0 : Fin 1))
  rw [hk]

theorem window3_read (A : S2097152x12.Idx → Elt F .f32) (t : Fin cfg0.N) (y : S32768x12.Idx) (n : Fin 2097152) (q : Fin 12)
    (hn : n.val = 32768 * t.val + (y 0).val) (hq : q.val = (y 1).val) :
    ((cfg0.win 3).blk t).view.read (Elt F) A y = A (ix2 n q) := by
  obtain ⟨-, -, -, -, ⟨e0, e1⟩, -, -, -, -, -, -, -, -⟩ := block_index t
  have hk : ((cfg0.win 3).blk t).view.emb y = ix2 n q := by
    funext a; apply Fin.ext
    match a with
    | ⟨0, _⟩ => show win0_3.index t (0 : Fin 2) * 32768 + 1 * (y 0).val = n.val; rw [e0, hn]; omega
    | ⟨1, _⟩ => show win0_3.index t (1 : Fin 2) * 12 + 1 * (y 1).val = q.val; rw [e1, hq]; omega
  show A (((cfg0.win 3).blk t).view.emb y) = A (ix2 n q)
  rw [hk]

theorem window4_read (A : S2097152x12.Idx → Elt F .f32) (t : Fin cfg0.N) (y : S32768x12.Idx) (n : Fin 2097152) (q : Fin 12)
    (hn : n.val = 32768 * t.val + (y 0).val) (hq : q.val = (y 1).val) :
    ((cfg0.win 4).blk t).view.read (Elt F) A y = A (ix2 n q) := by
  obtain ⟨-, -, -, -, -, ⟨e0, e1⟩, -, -, -, -, -, -, -⟩ := block_index t
  have hk : ((cfg0.win 4).blk t).view.emb y = ix2 n q := by
    funext a; apply Fin.ext
    match a with
    | ⟨0, _⟩ => show win0_4.index t (0 : Fin 2) * 32768 + 1 * (y 0).val = n.val; rw [e0, hn]; omega
    | ⟨1, _⟩ => show win0_4.index t (1 : Fin 2) * 12 + 1 * (y 1).val = q.val; rw [e1, hq]; omega
  show A (((cfg0.win 4).blk t).view.emb y) = A (ix2 n q)
  rw [hk]

theorem window5_read (A : S2097152x12.Idx → Elt F .f32) (t : Fin cfg0.N) (y : S32768x12.Idx) (n : Fin 2097152) (q : Fin 12)
    (hn : n.val = 32768 * t.val + (y 0).val) (hq : q.val = (y 1).val) :
    ((cfg0.win 5).blk t).view.read (Elt F) A y = A (ix2 n q) := by
  obtain ⟨-, -, -, -, -, -, ⟨e0, e1⟩, -, -, -, -, -, -⟩ := block_index t
  have hk : ((cfg0.win 5).blk t).view.emb y = ix2 n q := by
    funext a; apply Fin.ext
    match a with
    | ⟨0, _⟩ => show win0_5.index t (0 : Fin 2) * 32768 + 1 * (y 0).val = n.val; rw [e0, hn]; omega
    | ⟨1, _⟩ => show win0_5.index t (1 : Fin 2) * 12 + 1 * (y 1).val = q.val; rw [e1, hq]; omega
  show A (((cfg0.win 5).blk t).view.emb y) = A (ix2 n q)
  rw [hk]

theorem window6_read (A : S2097152x12.Idx → Elt F .f32) (t : Fin cfg0.N) (y : S32768x12.Idx) (n : Fin 2097152) (q : Fin 12)
    (hn : n.val = 32768 * t.val + (y 0).val) (hq : q.val = (y 1).val) :
    ((cfg0.win 6).blk t).view.read (Elt F) A y = A (ix2 n q) := by
  obtain ⟨-, -, -, -, -, -, -, ⟨e0, e1⟩, -, -, -, -, -⟩ := block_index t
  have hk : ((cfg0.win 6).blk t).view.emb y = ix2 n q := by
    funext a; apply Fin.ext
    match a with
    | ⟨0, _⟩ => show win0_6.index t (0 : Fin 2) * 32768 + 1 * (y 0).val = n.val; rw [e0, hn]; omega
    | ⟨1, _⟩ => show win0_6.index t (1 : Fin 2) * 12 + 1 * (y 1).val = q.val; rw [e1, hq]; omega
  show A (((cfg0.win 6).blk t).view.emb y) = A (ix2 n q)
  rw [hk]

theorem window7_read (A : S2097152x12.Idx → Elt F .f32) (t : Fin cfg0.N) (y : S32768x12.Idx) (n : Fin 2097152) (q : Fin 12)
    (hn : n.val = 32768 * t.val + (y 0).val) (hq : q.val = (y 1).val) :
    ((cfg0.win 7).blk t).view.read (Elt F) A y = A (ix2 n q) := by
  obtain ⟨-, -, -, -, -, -, -, -, ⟨e0, e1⟩, -, -, -, -⟩ := block_index t
  have hk : ((cfg0.win 7).blk t).view.emb y = ix2 n q := by
    funext a; apply Fin.ext
    match a with
    | ⟨0, _⟩ => show win0_7.index t (0 : Fin 2) * 32768 + 1 * (y 0).val = n.val; rw [e0, hn]; omega
    | ⟨1, _⟩ => show win0_7.index t (1 : Fin 2) * 12 + 1 * (y 1).val = q.val; rw [e1, hq]; omega
  show A (((cfg0.win 7).blk t).view.emb y) = A (ix2 n q)
  rw [hk]

theorem window8_read (A : S2097152x12.Idx → Elt F .f32) (t : Fin cfg0.N) (y : S32768x12.Idx) (n : Fin 2097152) (q : Fin 12)
    (hn : n.val = 32768 * t.val + (y 0).val) (hq : q.val = (y 1).val) :
    ((cfg0.win 8).blk t).view.read (Elt F) A y = A (ix2 n q) := by
  obtain ⟨-, -, -, -, -, -, -, -, -, ⟨e0, e1⟩, -, -, -⟩ := block_index t
  have hk : ((cfg0.win 8).blk t).view.emb y = ix2 n q := by
    funext a; apply Fin.ext
    match a with
    | ⟨0, _⟩ => show win0_8.index t (0 : Fin 2) * 32768 + 1 * (y 0).val = n.val; rw [e0, hn]; omega
    | ⟨1, _⟩ => show win0_8.index t (1 : Fin 2) * 12 + 1 * (y 1).val = q.val; rw [e1, hq]; omega
  show A (((cfg0.win 8).blk t).view.emb y) = A (ix2 n q)
  rw [hk]

theorem window9_read (A : S2097152x12.Idx → Elt F .f32) (t : Fin cfg0.N) (y : S32768x12.Idx) (n : Fin 2097152) (q : Fin 12)
    (hn : n.val = 32768 * t.val + (y 0).val) (hq : q.val = (y 1).val) :
    ((cfg0.win 9).blk t).view.read (Elt F) A y = A (ix2 n q) := by
  obtain ⟨-, -, -, -, -, -, -, -, -, -, ⟨e0, e1⟩, -, -⟩ := block_index t
  have hk : ((cfg0.win 9).blk t).view.emb y = ix2 n q := by
    funext a; apply Fin.ext
    match a with
    | ⟨0, _⟩ => show win0_9.index t (0 : Fin 2) * 32768 + 1 * (y 0).val = n.val; rw [e0, hn]; omega
    | ⟨1, _⟩ => show win0_9.index t (1 : Fin 2) * 12 + 1 * (y 1).val = q.val; rw [e1, hq]; omega
  show A (((cfg0.win 9).blk t).view.emb y) = A (ix2 n q)
  rw [hk]

theorem window10_read (A : S2097152x12.Idx → Elt F .f32) (t : Fin cfg0.N) (y : S32768x12.Idx) (n : Fin 2097152) (q : Fin 12)
    (hn : n.val = 32768 * t.val + (y 0).val) (hq : q.val = (y 1).val) :
    ((cfg0.win 10).blk t).view.read (Elt F) A y = A (ix2 n q) := by
  obtain ⟨-, -, -, -, -, -, -, -, -, -, -, ⟨e0, e1⟩, -⟩ := block_index t
  have hk : ((cfg0.win 10).blk t).view.emb y = ix2 n q := by
    funext a; apply Fin.ext
    match a with
    | ⟨0, _⟩ => show win0_10.index t (0 : Fin 2) * 32768 + 1 * (y 0).val = n.val; rw [e0, hn]; omega
    | ⟨1, _⟩ => show win0_10.index t (1 : Fin 2) * 12 + 1 * (y 1).val = q.val; rw [e1, hq]; omega
  show A (((cfg0.win 10).blk t).view.emb y) = A (ix2 n q)
  rw [hk]

theorem write_back_of_entries (G : S2097152x12.Idx → Elt F .f32) (B : Vec F S32768x12 .f32) (t : Fin cfg0.N)
    (h : ∀ y : S32768x12.Idx, B y = G (((cfg0.win 11).blk t).view.emb y)) :
    (cfg0.win 11).cut (grid0.coords t) B = ((cfg0.win 11).blk t).view.read (Elt F) G := by
  funext y
  exact h y

theorem output_index (t : Fin cfg0.N) (y : S32768x12.Idx) (n : Fin 2097152) (q : Fin 12)
    (hn : n.val = 32768 * t.val + (y 0).val) (hq : q.val = (y 1).val) :
    ((cfg0.win 11).blk t).view.emb y = ix2 n q := by
  obtain ⟨-, -, -, -, -, -, -, -, -, -, -, -, ⟨e0, e1⟩⟩ := block_index t
  funext a; apply Fin.ext
  match a with
  | ⟨0, _⟩ => show win0_11.index t (0 : Fin 2) * 32768 + 1 * (y 0).val = n.val; rw [e0, hn]; omega
  | ⟨1, _⟩ => show win0_11.index t (1 : Fin 2) * 12 + 1 * (y 1).val = q.val; rw [e1, hq]; omega

theorem mem_output_block (t : Fin cfg0.N) (i : S2097152x12.Idx) :
    i ∈ ((cfg0.win 11).blk t).view.set
      ↔ ∀ a : Fin 2, win0_11.index t a * S32768x12.size a ≤ (i a).val ∧ (i a).val < win0_11.index t a * S32768x12.size a + S32768x12.size a := by
  show i ∈ ((View.whole main_v119).slice (win0_11.rect t)).set ↔ _
  rw [View.set_slice_whole, Rect.mem_set_unit]
  exact Iff.rfl

theorem rows_covered (i : S2097152x12.Idx) :
    ∃ t : Fin cfg0.N, (cfg0.win 11).flush t = true ∧ i ∈ ((cfg0.win 11).blk t).view.set := by
  have hi0 : (i 0).val < 2097152 := (i 0).isLt
  have hi1 : (i 1).val < 12 := (i 1).isLt
  obtain ⟨t, ht⟩ : ∃ t : Fin cfg0.N, t.val = (i 0).val / 32768 :=
    ⟨⟨(i 0).val / 32768, by show (i 0).val / 32768 < 64; omega⟩, rfl⟩
  obtain ⟨-, -, -, -, -, -, -, -, -, -, -, -, ⟨e0, e1⟩⟩ := block_index t
  refine ⟨t, flush0_11 t, ?_⟩
  rw [mem_output_block]
  intro a
  match a with
  | ⟨0, _⟩ =>
    show win0_11.index t (0 : Fin 2) * 32768 ≤ (i 0).val ∧ (i 0).val < win0_11.index t (0 : Fin 2) * 32768 + 32768
    rw [e0, ht]; omega
  | ⟨1, _⟩ =>
    show win0_11.index t (1 : Fin 2) * 12 ≤ (i 1).val ∧ (i 1).val < win0_11.index t (1 : Fin 2) * 12 + 12
    rw [e1]; omega

variable (m : (ℓ : Loc nD τ sig) → Buf (Elt F) ℓ)

theorem weight_block_last (c : Dev nD) (t : Fin cfg0.N) (k : S32768x1.Idx) (n : Fin 2097152)
    (hn : n.val = 32768 * t.val + (k 0).val) :
    (iblk m c 0 t : Vec F S32768x1 .f32) k = fx (inputs m c) (ix1 n) := by
  have h : (iblk m c 0 t : Vec F S32768x1 .f32) k = ((cfg0.win 0).blk t).view.read (Elt F) (V m c main_v41) k := rfl
  rw [h, Host.win0 m c, window0_read _ t k n hn]
  exact column_apply _ n

theorem weight_block_middle (c : Dev nD) (t : Fin cfg0.N) (k : S32768x1.Idx) (n : Fin 2097152)
    (hn : n.val = 32768 * t.val + (k 0).val) :
    (iblk m c 1 t : Vec F S32768x1 .f32) k = fy (inputs m c) (ix1 n) := by
  have h : (iblk m c 1 t : Vec F S32768x1 .f32) k = ((cfg0.win 1).blk t).view.read (Elt F) (V m c main_v43) k := rfl
  rw [h, Host.win1 m c, window1_read _ t k n hn]
  exact column_apply _ n

theorem weight_block_first (c : Dev nD) (t : Fin cfg0.N) (k : S32768x1.Idx) (n : Fin 2097152)
    (hn : n.val = 32768 * t.val + (k 0).val) :
    (iblk m c 2 t : Vec F S32768x1 .f32) k = fz (inputs m c) (ix1 n) := by
  have h : (iblk m c 2 t : Vec F S32768x1 .f32) k = ((cfg0.win 2).blk t).view.read (Elt F) (V m c main_v45) k := rfl
  rw [h, Host.win2 m c, window2_read _ t k n hn]
  exact column_apply _ n

theorem corner_block_000 (c : Dev nD) (t : Fin cfg0.N) (y : S32768x12.Idx) (n : Fin 2097152) (q : Fin 12)
    (hn : n.val = 32768 * t.val + (y 0).val) (hq : q.val = (y 1).val) :
    (iblk m c 3 t : Vec F S32768x12 .f32) y
      = Cert.Spec.corner (F := F) (table (inputs m c)) (z0 (inputs m c)) (y0 (inputs m c)) (x0 (inputs m c)) n q := by
  have h : (iblk m c 3 t : Vec F S32768x12 .f32) y = ((cfg0.win 3).blk t).view.read (Elt F) (V m c main_v69) y := rfl
  rw [h, Host.win3 m c, window3_read _ t y n q hn hq]
  exact take_flat_apply _ _ _ _ n q (Cert.ReferenceIdeal.Stages.clip_range _ _)
    (Cert.ReferenceIdeal.Stages.clip_range _ _) (Cert.ReferenceIdeal.Stages.clip_range _ _)

theorem corner_block_001 (c : Dev nD) (t : Fin cfg0.N) (y : S32768x12.Idx) (n : Fin 2097152) (q : Fin 12)
    (hn : n.val = 32768 * t.val + (y 0).val) (hq : q.val = (y 1).val) :
    (iblk m c 4 t : Vec F S32768x12 .f32) y
      = Cert.Spec.corner (F := F) (table (inputs m c)) (z0 (inputs m c)) (y0 (inputs m c)) (x1 (inputs m c)) n q := by
  have h : (iblk m c 4 t : Vec F S32768x12 .f32) y = ((cfg0.win 4).blk t).view.read (Elt F) (V m c main_v76) y := rfl
  rw [h, Host.win4 m c, window4_read _ t y n q hn hq]
  exact take_flat_apply _ _ _ _ n q (Cert.ReferenceIdeal.Stages.clip_range _ _)
    (Cert.ReferenceIdeal.Stages.clip_range _ _) (Cert.ReferenceIdeal.Stages.clip_range _ _)

theorem corner_block_010 (c : Dev nD) (t : Fin cfg0.N) (y : S32768x12.Idx) (n : Fin 2097152) (q : Fin 12)
    (hn : n.val = 32768 * t.val + (y 0).val) (hq : q.val = (y 1).val) :
    (iblk m c 5 t : Vec F S32768x12 .f32) y
      = Cert.Spec.corner (F := F) (table (inputs m c)) (z0 (inputs m c)) (y1 (inputs m c)) (x0 (inputs m c)) n q := by
  have h : (iblk m c 5 t : Vec F S32768x12 .f32) y = ((cfg0.win 5).blk t).view.read (Elt F) (V m c main_v83) y := rfl
  rw [h, Host.win5 m c, window5_read _ t y n q hn hq]
  exact take_flat_apply _ _ _ _ n q (Cert.ReferenceIdeal.Stages.clip_range _ _)
    (Cert.ReferenceIdeal.Stages.clip_range _ _) (Cert.ReferenceIdeal.Stages.clip_range _ _)

theorem corner_block_011 (c : Dev nD) (t : Fin cfg0.N) (y : S32768x12.Idx) (n : Fin 2097152) (q : Fin 12)
    (hn : n.val = 32768 * t.val + (y 0).val) (hq : q.val = (y 1).val) :
    (iblk m c 6 t : Vec F S32768x12 .f32) y
      = Cert.Spec.corner (F := F) (table (inputs m c)) (z0 (inputs m c)) (y1 (inputs m c)) (x1 (inputs m c)) n q := by
  have h : (iblk m c 6 t : Vec F S32768x12 .f32) y = ((cfg0.win 6).blk t).view.read (Elt F) (V m c main_v90) y := rfl
  rw [h, Host.win6 m c, window6_read _ t y n q hn hq]
  exact take_flat_apply _ _ _ _ n q (Cert.ReferenceIdeal.Stages.clip_range _ _)
    (Cert.ReferenceIdeal.Stages.clip_range _ _) (Cert.ReferenceIdeal.Stages.clip_range _ _)

theorem corner_block_100 (c : Dev nD) (t : Fin cfg0.N) (y : S32768x12.Idx) (n : Fin 2097152) (q : Fin 12)
    (hn : n.val = 32768 * t.val + (y 0).val) (hq : q.val = (y 1).val) :
    (iblk m c 7 t : Vec F S32768x12 .f32) y
      = Cert.Spec.corner (F := F) (table (inputs m c)) (z1 (inputs m c)) (y0 (inputs m c)) (x0 (inputs m c)) n q := by
  have h : (iblk m c 7 t : Vec F S32768x12 .f32) y = ((cfg0.win 7).blk t).view.read (Elt F) (V m c main_v97) y := rfl
  rw [h, Host.win7 m c, window7_read _ t y n q hn hq]
  exact take_flat_apply _ _ _ _ n q (Cert.ReferenceIdeal.Stages.clip_range _ _)
    (Cert.ReferenceIdeal.Stages.clip_range _ _) (Cert.ReferenceIdeal.Stages.clip_range _ _)

theorem corner_block_101 (c : Dev nD) (t : Fin cfg0.N) (y : S32768x12.Idx) (n : Fin 2097152) (q : Fin 12)
    (hn : n.val = 32768 * t.val + (y 0).val) (hq : q.val = (y 1).val) :
    (iblk m c 8 t : Vec F S32768x12 .f32) y
      = Cert.Spec.corner (F := F) (table (inputs m c)) (z1 (inputs m c)) (y0 (inputs m c)) (x1 (inputs m c)) n q := by
  have h : (iblk m c 8 t : Vec F S32768x12 .f32) y = ((cfg0.win 8).blk t).view.read (Elt F) (V m c main_v104) y := rfl
  rw [h, Host.win8 m c, window8_read _ t y n q hn hq]
  exact take_flat_apply _ _ _ _ n q (Cert.ReferenceIdeal.Stages.clip_range _ _)
    (Cert.ReferenceIdeal.Stages.clip_range _ _) (Cert.ReferenceIdeal.Stages.clip_range _ _)

theorem corner_block_110 (c : Dev nD) (t : Fin cfg0.N) (y : S32768x12.Idx) (n : Fin 2097152) (q : Fin 12)
    (hn : n.val = 32768 * t.val + (y 0).val) (hq : q.val = (y 1).val) :
    (iblk m c 9 t : Vec F S32768x12 .f32) y
      = Cert.Spec.corner (F := F) (table (inputs m c)) (z1 (inputs m c)) (y1 (inputs m c)) (x0 (inputs m c)) n q := by
  have h : (iblk m c 9 t : Vec F S32768x12 .f32) y = ((cfg0.win 9).blk t).view.read (Elt F) (V m c main_v111) y := rfl
  rw [h, Host.win9 m c, window9_read _ t y n q hn hq]
  exact take_flat_apply _ _ _ _ n q (Cert.ReferenceIdeal.Stages.clip_range _ _)
    (Cert.ReferenceIdeal.Stages.clip_range _ _) (Cert.ReferenceIdeal.Stages.clip_range _ _)

theorem corner_block_111 (c : Dev nD) (t : Fin cfg0.N) (y : S32768x12.Idx) (n : Fin 2097152) (q : Fin 12)
    (hn : n.val = 32768 * t.val + (y 0).val) (hq : q.val = (y 1).val) :
    (iblk m c 10 t : Vec F S32768x12 .f32) y
      = Cert.Spec.corner (F := F) (table (inputs m c)) (z1 (inputs m c)) (y1 (inputs m c)) (x1 (inputs m c)) n q := by
  have h : (iblk m c 10 t : Vec F S32768x12 .f32) y = ((cfg0.win 10).blk t).view.read (Elt F) (V m c main_v118) y := rfl
  rw [h, Host.win10 m c, window10_read _ t y n q hn hq]
  exact take_flat_apply _ _ _ _ n q (Cert.ReferenceIdeal.Stages.clip_range _ _)
    (Cert.ReferenceIdeal.Stages.clip_range _ _) (Cert.ReferenceIdeal.Stages.clip_range _ _)

def image (c : Dev nD) : S2097152x12.Idx → Elt F .f32 := fun i =>
  Cert.ReferenceIdeal.Stages.interp (inputs m c)
      (⟨(i 0).val, by have h : (i 0).val < 2097152 := (i 0).isLt; exact h⟩ : Fin 2097152)
      (⟨(i 1).val, by have h : (i 1).val < 12 := (i 1).isLt; exact h⟩ : Fin 12)

theorem image_apply (c : Dev nD) (n : Fin 2097152) (q : Fin 12) :
    image m c (ix2 n q) = Cert.ReferenceIdeal.Stages.interp (inputs m c) n q := rfl

theorem block_entry (c : Dev nD) (t : Fin cfg0.N) (y : S32768x12.Idx) :
    E11 (iblk m c 3 t) (iblk m c 2 t) (iblk m c 1 t) (iblk m c 0 t) (iblk m c 4 t) (iblk m c 5 t) (iblk m c 6 t)
        (iblk m c 7 t) (iblk m c 8 t) (iblk m c 9 t) (iblk m c 10 t) y
      = image m c (((cfg0.win 11).blk t).view.emb y) := by
  obtain ⟨ht, -⟩ := block_index t
  have hy0 : (y 0).val < 32768 := (y 0).isLt
  have hy1 : (y 1).val < 12 := (y 1).isLt

  obtain ⟨n, hn⟩ : ∃ n : Fin 2097152, n.val = 32768 * t.val + (y 0).val := ⟨⟨32768 * t.val + (y 0).val, by omega⟩, rfl⟩
  obtain ⟨q, hq⟩ : ∃ q : Fin 12, q.val = (y 1).val := ⟨⟨(y 1).val, hy1⟩, rfl⟩
  have hnc : n.val = 32768 * t.val + ((colOf y) 0).val := hn
  rw [output_index t y n q hn hq, image_apply, Cert.ReferenceIdeal.Stages.interp, tri_eq_mix, combine_apply,
    corner_block_000 m c t y n q hn hq, corner_block_001 m c t y n q hn hq, corner_block_010 m c t y n q hn hq,
    corner_block_011 m c t y n q hn hq, corner_block_100 m c t y n q hn hq, corner_block_101 m c t y n q hn hq,
    corner_block_110 m c t y n q hn hq, corner_block_111 m c t y n q hn hq,
    weight_block_first m c t (colOf y) n hnc, weight_block_middle m c t (colOf y) n hnc, weight_block_last m c t (colOf y) n hnc]

theorem written_block (c : Dev nD) (t : Fin cfg0.N) :
    (dats m 0 c).flushed 11 t = ((cfg0.win 11).blk t).view.read (Elt F) (image m c) := by
  rw [Value.flushed11, body_block]
  exact write_back_of_entries (image m c) _ t (block_entry m c t)

theorem final_array (c : Dev nD) : (dats m 0 c).arrAt 11 cfg0.N = image m c :=
  (dats m 0 c).arrAt_eq_of_cover 11 (image m c) (fun t _ => written_block m c t) rows_covered

theorem kernel_at (c : Dev nD) (n : Fin 2097152) (q : Fin 12) :
    (dats m 0 c).arrAt 11 cfg0.N (ix2 n q)
      = Cert.ReferenceIdeal.Stages.interp (inputs m c) n q :=
  (congrFun (final_array m c) (ix2 n q)).trans (image_apply m c n q)

end Cert.KernelIdeal.KerValue

end
-- ==== Proof.RefHostTable.lean ====
import proofs.«109906_j49606872269475_1_alg».proof.Proof.Gen.ReferenceIdeal
import proofs.«109906_j49606872269475_1_alg».proof.Proof.LibStretches

-- @main's 379 operations in order (a called function's operations stand in its call's place), cut into ten stretches.

set_option maxRecDepth 8192

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
def ops0 : List (HloOp τ sig (Elt F)) :=
  [ reshape main_arg1 main_v0 rfl shapeCasts_S1x12x160x160x160_S12x160x160x160,
    unary main_arg2 main_v1 (broadcastInDim S1x3 ![1] bcast_S3_S1x3_1),
    unary main_v1 main_v2 (broadcastInDim S2097152x3 ![0, 1] bcast_S1x3_S2097152x3_0_1),
    binary main_arg0 main_v2 main_v3 subf,
    binary main_arg3 main_arg2 main_v4 subf,
    unary main_v4 main_v5 (broadcastInDim S1x3 ![1] bcast_S3_S1x3_1),
    unary main_v5 main_v6 (broadcastInDim S2097152x3 ![0, 1] bcast_S1x3_S2097152x3_0_1),
    binary main_v3 main_v6 main_v7 Host.divf,
    unary main_v7 main_v8 (Host.reverse [1]),
    nullary main_cst (constant S_ .f32 0x40000000#32),
    unary main_cst main_v9 (broadcastInDim S2097152x3 ![] bcast_S_S2097152x3),
    binary main_v8 main_v9 main_v10 mulf,
    nullary main_cst_0 (constant S_ .f32 0x3F800000#32),
    unary main_cst_0 main_v11 (broadcastInDim S2097152x3 ![] bcast_S_S2097152x3),
    binary main_v10 main_v11 main_v12 subf,
    unary main_v12 main_v13 (extractStridedSlice S2097152x1 ![0, 0] · slices_S2097152x3_S2097152x1_0_0),
    reshape main_v13 main_v14 rfl shapeCasts_S2097152x1_S2097152,
    unary main_v12 main_v15 (extractStridedSlice S2097152x1 ![0, 1] · slices_S2097152x3_S2097152x1_0_1),
    reshape main_v15 main_v16 rfl shapeCasts_S2097152x1_S2097152,
    unary main_v12 main_v17 (extractStridedSlice S2097152x1 ![0, 2] · slices_S2097152x3_S2097152x1_0_2),
    reshape main_v17 main_v18 rfl shapeCasts_S2097152x1_S2097152,
    nullary main_cst_1 (constant S_ .f32 0x3F800000#32),
    unary main_cst_1 main_v19 (broadcastInDim S2097152 ![] bcast_S_S2097152),
    binary main_v14 main_v19 main_v20 addf,
    nullary main_cst_2 (constant S_ .f32 0x3F000000#32),
    unary main_cst_2 main_v21 (broadcastInDim S2097152 ![] bcast_S_S2097152),
    binary main_v20 main_v21 main_v22 mulf,
    nullary main_cst_3 (constant S_ .f32 0x431F0000#32),
    unary main_cst_3 main_v23 (broadcastInDim S2097152 ![] bcast_S_S2097152),
    binary main_v22 main_v23 main_v24 mulf,
    nullary main_cst_4 (constant S_ .f32 0x3F800000#32),
    unary main_cst_4 main_v25 (broadcastInDim S2097152 ![] bcast_S_S2097152),
    binary main_v16 main_v25 main_v26 addf,
    nullary main_cst_5 (constant S_ .f32 0x3F000000#32),
    unary main_cst_5 main_v27 (broadcastInDim S2097152 ![] bcast_S_S2097152),
    binary main_v26 main_v27 main_v28 mulf,
    nullary main_cst_6 (constant S_ .f32 0x431F0000#32),
    unary main_cst_6 main_v29 (broadcastInDim S2097152 ![] bcast_S_S2097152),
    binary main_v28 main_v29 main_v30 mulf,
    nullary main_cst_7 (constant S_ .f32 0x3F800000#32),
    unary main_cst_7 main_v31 (broadcastInDim S2097152 ![] bcast_S_S2097152),
    binary main_v18 main_v31 main_v32 addf,
    nullary main_cst_8 (constant S_ .f32 0x3F000000#32),
    unary main_cst_8 main_v33 (broadcastInDim S2097152 ![] bcast_S_S2097152),
    binary main_v32 main_v33 main_v34 mulf,
    nullary main_cst_9 (constant S_ .f32 0x431F0000#32),
    unary main_cst_9 main_v35 (broadcastInDim S2097152 ![] bcast_S_S2097152),
    binary main_v34 main_v35 main_v36 mulf,
    unary main_v24 main_v37 Host.floor,
    unary main_v30 main_v38 Host.floor,
    unary main_v36 main_v39 Host.floor,
    binary main_v24 main_v37 main_v40 subf,
    binary main_v30 main_v38 main_v41 subf,
    binary main_v36 main_v39 main_v42 subf ]

set_option maxHeartbeats 4000000 in
def ops1 : List (HloOp τ sig (Elt F)) :=
  [ unary main_v37 main_v43 (fptosi 32),
    nullary main_c (constantI S_ 32 0#32),
    nullary main_c_10 (constantI S_ 32 159#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2097152, .i32⟩) main_call0_v1) (broadcastInDim S2097152 ![] bcast_S_S2097152),
    TRef.binary (TRef.of (T := ⟨S2097152, .i32⟩) main_call0_v1) (TRef.of (T := ⟨S2097152, .i32⟩) main_v43) (TRef.of (T := ⟨S2097152, .i32⟩) main_call0_v2) maxsi,
    TRef.unary (TRef.of (T := ⟨S_, .i32⟩) main_c_10) (TRef.of (T := ⟨S_, .i32⟩) main_call0_v3) id,
    TRef.unary (TRef.of (T := ⟨S_, .i32⟩) main_call0_v3) (TRef.of (T := ⟨S2097152, .i32⟩) main_call0_v4) (broadcastInDim S2097152 ![] bcast_S_S2097152),
    TRef.binary (TRef.of (T := ⟨S2097152, .i32⟩) main_call0_v4) (TRef.of (T := ⟨S2097152, .i32⟩) main_call0_v2) (TRef.of (T := ⟨S2097152, .i32⟩) main_v44) minsi,
    unary main_v38 main_v45 (fptosi 32),
    nullary main_c_11 (constantI S_ 32 0#32),
    nullary main_c_12 (constantI S_ 32 159#32),
    TRef.unary (TRef.of (T := ⟨S_, .i32⟩) main_c_11) (TRef.of (T := ⟨S_, .i32⟩) main_call1_v0) id,
    TRef.unary (TRef.of (T := ⟨S_, .i32⟩) main_call1_v0) (TRef.of (T := ⟨S2097152, .i32⟩) main_call1_v1) (broadcastInDim S2097152 ![] bcast_S_S2097152),
    TRef.binary (TRef.of (T := ⟨S2097152, .i32⟩) main_call1_v1) (TRef.of (T := ⟨S2097152, .i32⟩) main_v45) (TRef.of (T := ⟨S2097152, .i32⟩) main_call1_v2) maxsi,
    TRef.unary (TRef.of (T := ⟨S_, .i32⟩) main_c_12) (TRef.of (T := ⟨S_, .i32⟩) main_call1_v3) id,
    TRef.unary (TRef.of (T := ⟨S_, .i32⟩) main_call1_v3) (TRef.of (T := ⟨S2097152, .i32⟩) main_call1_v4) (broadcastInDim S2097152 ![] bcast_S_S2097152),
    TRef.binary (TRef.of (T := ⟨S2097152, .i32⟩) main_call1_v4) (TRef.of (T := ⟨S2097152, .i32⟩) main_call1_v2) (TRef.of (T := ⟨S2097152, .i32⟩) main_v46) minsi,
    unary main_v39 main_v47 (fptosi 32),
    nullary main_c_13 (constantI S_ 32 0#32),
    nullary main_c_14 (constantI S_ 32 159#32),
    TRef.unary (TRef.of (T := ⟨S_, .i32⟩) main_c_13) (TRef.of (T := ⟨S_, .i32⟩) main_call2_v0) id,
    TRef.unary (TRef.of (T := ⟨S_, .i32⟩) main_call2_v0) (TRef.of (T := ⟨S2097152, .i32⟩) main_call2_v1) (broadcastInDim S2097152 ![] bcast_S_S2097152),
    TRef.binary (TRef.of (T := ⟨S2097152, .i32⟩) main_call2_v1) (TRef.of (T := ⟨S2097152, .i32⟩) main_v47) (TRef.of (T := ⟨S2097152, .i32⟩) main_call2_v2) maxsi,
    TRef.unary (TRef.of (T := ⟨S_, .i32⟩) main_c_14) (TRef.of (T := ⟨S_, .i32⟩) main_call2_v3) id,
    TRef.unary (TRef.of (T := ⟨S_, .i32⟩) main_call2_v3) (TRef.of (T := ⟨S2097152, .i32⟩) main_call2_v4) (broadcastInDim S2097152 ![] bcast_S_S2097152),
    TRef.binary (TRef.of (T := ⟨S2097152, .i32⟩) main_call2_v4) (TRef.of (T := ⟨S2097152, .i32⟩) main_call2_v2) (TRef.of (T := ⟨S2097152, .i32⟩) main_v48) minsi,
    nullary main_c_15 (constantI S_ 32 1#32),
    unary main_c_15 main_v49 (broadcastInDim S2097152 ![] bcast_S_S2097152),
    binary main_v44 main_v49 main_v50 addi,
    nullary main_c_16 (constantI S_ 32 0#32),
    nullary main_c_17 (constantI S_ 32 159#32),
    TRef.unary (TRef.of (T := ⟨S_, .i32⟩) main_c_16) (TRef.of (T := ⟨S_, .i32⟩) main_call3_v0) id,
    TRef.unary (TRef.of (T := ⟨S_, .i32⟩) main_call3_v0) (TRef.of (T := ⟨S2097152, .i32⟩) main_call3_v1) (broadcastInDim S2097152 ![] bcast_S_S2097152),
    TRef.binary (TRef.of (T := ⟨S2097152, .i32⟩) main_call3_v1) (TRef.of (T := ⟨S2097152, .i32⟩) main_v50) (TRef.of (T := ⟨S2097152, .i32⟩) main_call3_v2) maxsi,
    TRef.unary (TRef.of (T := ⟨S_, .i32⟩) main_c_17) (TRef.of (T := ⟨S_, .i32⟩) main_call3_v3) id,
    TRef.unary (TRef.of (T := ⟨S_, .i32⟩) main_call3_v3) (TRef.of (T := ⟨S2097152, .i32⟩) main_call3_v4) (broadcastInDim S2097152 ![] bcast_S_S2097152),
    TRef.binary (TRef.of (T := ⟨S2097152, .i32⟩) main_call3_v4) (TRef.of (T := ⟨S2097152, .i32⟩) main_call3_v2) (TRef.of (T := ⟨S2097152, .i32⟩) main_v51) minsi,
    nullary main_c_18 (constantI S_ 32 1#32),
    unary main_c_18 main_v52 (broadcastInDim S2097152 ![] bcast_S_S2097152),
    binary main_v46 main_v52 main_v53 addi,
    nullary main_c_19 (constantI S_ 32 0#32),
    nullary main_c_20 (constantI S_ 32 159#32),
    TRef.unary (TRef.of (T := ⟨S_, .i32⟩) main_c_19) (TRef.of (T := ⟨S_, .i32⟩) main_call4_v0) id,
    TRef.unary (TRef.of (T := ⟨S_, .i32⟩) main_call4_v0) (TRef.of (T := ⟨S2097152, .i32⟩) main_call4_v1) (broadcastInDim S2097152 ![] bcast_S_S2097152),
    TRef.binary (TRef.of (T := ⟨S2097152, .i32⟩) main_call4_v1) (TRef.of (T := ⟨S2097152, .i32⟩) main_v53) (TRef.of (T := ⟨S2097152, .i32⟩) main_call4_v2) maxsi,
    TRef.unary (TRef.of (T := ⟨S_, .i32⟩) main_c_20) (TRef.of (T := ⟨S_, .i32⟩) main_call4_v3) id,
    TRef.unary (TRef.of (T := ⟨S_, .i32⟩) main_call4_v3) (TRef.of (T := ⟨S2097152, .i32⟩) main_call4_v4) (broadcastInDim S2097152 ![] bcast_S_S2097152),
    TRef.binary (TRef.of (T := ⟨S2097152, .i32⟩) main_call4_v4) (TRef.of (T := ⟨S2097152, .i32⟩) main_call4_v2) (TRef.of (T := ⟨S2097152, .i32⟩) main_v54) minsi,
    nullary main_c_21 (constantI S_ 32 1#32),
    unary main_c_21 main_v55 (broadcastInDim S2097152 ![] bcast_S_S2097152),
    binary main_v48 main_v55 main_v56 addi,
    nullary main_c_22 (constantI S_ 32 0#32),
    nullary main_c_23 (constantI S_ 32 159#32),
    TRef.unary (TRef.of (T := ⟨S_, .i32⟩) main_c_22) (TRef.of (T := ⟨S_, .i32⟩) main_call5_v0) id,
    TRef.unary (TRef.of (T := ⟨S_, .i32⟩) main_call5_v0) (TRef.of (T := ⟨S2097152, .i32⟩) main_call5_v1) (broadcastInDim S2097152 ![] bcast_S_S2097152),
    TRef.binary (TRef.of (T := ⟨S2097152, .i32⟩) main_call5_v1) (TRef.of (T := ⟨S2097152, .i32⟩) main_v56) (TRef.of (T := ⟨S2097152, .i32⟩) main_call5_v2) maxsi,
    TRef.unary (TRef.of (T := ⟨S_, .i32⟩) main_c_23) (TRef.of (T := ⟨S_, .i32⟩) main_call5_v3) id,
    TRef.unary (TRef.of (T := ⟨S_, .i32⟩) main_call5_v3) (TRef.of (T := ⟨S2097152, .i32⟩) main_call5_v4) (broadcastInDim S2097152 ![] bcast_S_S2097152),
    TRef.binary (TRef.of (T := ⟨S2097152, .i32⟩) main_call5_v4) (TRef.of (T := ⟨S2097152, .i32⟩) main_call5_v2) (TRef.of (T := ⟨S2097152, .i32⟩) main_v57) minsi,
    nullary main_cst_24 (constant S_ .f32 0x3F800000#32),
    unary main_cst_24 main_v58 (broadcastInDim S2097152 ![] bcast_S_S2097152),
    binary main_v58 main_v40 main_v59 subf,
    nullary main_cst_25 (constant S_ .f32 0x3F800000#32),
    unary main_cst_25 main_v60 (broadcastInDim S2097152 ![] bcast_S_S2097152),
    binary main_v60 main_v41 main_v61 subf,
    nullary main_cst_26 (constant S_ .f32 0x3F800000#32),
    unary main_cst_26 main_v62 (broadcastInDim S2097152 ![] bcast_S_S2097152),
    binary main_v62 main_v42 main_v63 subf ]

set_option maxHeartbeats 4000000 in
def ops2 : List (HloOp τ sig (Elt F)) :=
  [ nullary main_c_27 (constantI S_ 32 0#32),
    unary main_c_27 main_v64 (broadcastInDim S2097152 ![] bcast_S_S2097152),
    binary main_v48 main_v64 main_v65 (cmpi .slt),
    nullary main_c_28 (constantI S_ 32 160#32),
    unary main_c_28 main_v66 (broadcastInDim S2097152 ![] bcast_S_S2097152),
    binary main_v48 main_v66 main_v67 addi,
    ternary main_v65 main_v67 main_v48 main_v68 select,
    nullary main_c_29 (constantI S_ 32 0#32),
    unary main_c_29 main_v69 (broadcastInDim S2097152 ![] bcast_S_S2097152),
    binary main_v46 main_v69 main_v70 (cmpi .slt),
    nullary main_c_30 (constantI S_ 32 160#32),
    unary main_c_30 main_v71 (broadcastInDim S2097152 ![] bcast_S_S2097152),
    binary main_v46 main_v71 main_v72 addi,
    ternary main_v70 main_v72 main_v46 main_v73 select,
    nullary main_c_31 (constantI S_ 32 0#32),
    unary main_c_31 main_v74 (broadcastInDim S2097152 ![] bcast_S_S2097152),
    binary main_v44 main_v74 main_v75 (cmpi .slt),
    nullary main_c_32 (constantI S_ 32 160#32),
    unary main_c_32 main_v76 (broadcastInDim S2097152 ![] bcast_S_S2097152),
    binary main_v44 main_v76 main_v77 addi,
    ternary main_v75 main_v77 main_v44 main_v78 select,
    unary main_v68 main_v79 (broadcastInDim S2097152x1 ![0] bcast_S2097152_S2097152x1_0),
    unary main_v73 main_v80 (broadcastInDim S2097152x1 ![0] bcast_S2097152_S2097152x1_0),
    unary main_v78 main_v81 (broadcastInDim S2097152x1 ![0] bcast_S2097152_S2097152x1_0),
    nary ![main_v79, main_v80, main_v81] main_v82 (fun u => concatenate S2097152x3 1 [⟨S2097152x1, u 0⟩, ⟨S2097152x1, u 1⟩, ⟨S2097152x1, u 2⟩] concatenates_S2097152x1_S2097152x1_S2097152x1_S2097152x3_d1),
    binary main_v0 main_v82 main_v83 (fun x i => Host.gather gather_S12x160x160x160_S2097152x3_S12x2097152_0_123_n_n_123_1_12111 x i),
    binary main_v63 main_v61 main_v84 mulf,
    binary main_v84 main_v59 main_v85 mulf,
    unary main_v85 main_v86 (broadcastInDim S1x2097152 ![1] bcast_S2097152_S1x2097152_1),
    unary main_v86 main_v87 (broadcastInDim S12x2097152 ![0, 1] bcast_S1x2097152_S12x2097152_0_1),
    binary main_v83 main_v87 main_v88 mulf ]

set_option maxHeartbeats 4000000 in
def ops3 : List (HloOp τ sig (Elt F)) :=
  [ nullary main_c_33 (constantI S_ 32 0#32),
    unary main_c_33 main_v89 (broadcastInDim S2097152 ![] bcast_S_S2097152),
    binary main_v48 main_v89 main_v90 (cmpi .slt),
    nullary main_c_34 (constantI S_ 32 160#32),
    unary main_c_34 main_v91 (broadcastInDim S2097152 ![] bcast_S_S2097152),
    binary main_v48 main_v91 main_v92 addi,
    ternary main_v90 main_v92 main_v48 main_v93 select,
    nullary main_c_35 (constantI S_ 32 0#32),
    unary main_c_35 main_v94 (broadcastInDim S2097152 ![] bcast_S_S2097152),
    binary main_v46 main_v94 main_v95 (cmpi .slt),
    nullary main_c_36 (constantI S_ 32 160#32),
    unary main_c_36 main_v96 (broadcastInDim S2097152 ![] bcast_S_S2097152),
    binary main_v46 main_v96 main_v97 addi,
    ternary main_v95 main_v97 main_v46 main_v98 select,
    nullary main_c_37 (constantI S_ 32 0#32),
    unary main_c_37 main_v99 (broadcastInDim S2097152 ![] bcast_S_S2097152),
    binary main_v51 main_v99 main_v100 (cmpi .slt),
    nullary main_c_38 (constantI S_ 32 160#32),
    unary main_c_38 main_v101 (broadcastInDim S2097152 ![] bcast_S_S2097152),
    binary main_v51 main_v101 main_v102 addi,
    ternary main_v100 main_v102 main_v51 main_v103 select,
    unary main_v93 main_v104 (broadcastInDim S2097152x1 ![0] bcast_S2097152_S2097152x1_0),
    unary main_v98 main_v105 (broadcastInDim S2097152x1 ![0] bcast_S2097152_S2097152x1_0),
    unary main_v103 main_v106 (broadcastInDim S2097152x1 ![0] bcast_S2097152_S2097152x1_0),
    nary ![main_v104, main_v105, main_v106] main_v107 (fun u => concatenate S2097152x3 1 [⟨S2097152x1, u 0⟩, ⟨S2097152x1, u 1⟩, ⟨S2097152x1, u 2⟩] concatenates_S2097152x1_S2097152x1_S2097152x1_S2097152x3_d1),
    binary main_v0 main_v107 main_v108 (fun x i => Host.gather gather_S12x160x160x160_S2097152x3_S12x2097152_0_123_n_n_123_1_12111 x i),
    binary main_v63 main_v61 main_v109 mulf,
    binary main_v109 main_v40 main_v110 mulf,
    unary main_v110 main_v111 (broadcastInDim S1x2097152 ![1] bcast_S2097152_S1x2097152_1),
    unary main_v111 main_v112 (broadcastInDim S12x2097152 ![0, 1] bcast_S1x2097152_S12x2097152_0_1),
    binary main_v108 main_v112 main_v113 mulf,
    binary main_v88 main_v113 main_v114 addf ]

set_option maxHeartbeats 4000000 in
def ops4 : List (HloOp τ sig (Elt F)) :=
  [ nullary main_c_39 (constantI S_ 32 0#32),
    unary main_c_39 main_v115 (broadcastInDim S2097152 ![] bcast_S_S2097152),
    binary main_v48 main_v115 main_v116 (cmpi .slt),
    nullary main_c_40 (constantI S_ 32 160#32),
    unary main_c_40 main_v117 (broadcastInDim S2097152 ![] bcast_S_S2097152),
    binary main_v48 main_v117 main_v118 addi,
    ternary main_v116 main_v118 main_v48 main_v119 select,
    nullary main_c_41 (constantI S_ 32 0#32),
    unary main_c_41 main_v120 (broadcastInDim S2097152 ![] bcast_S_S2097152),
    binary main_v54 main_v120 main_v121 (cmpi .slt),
    nullary main_c_42 (constantI S_ 32 160#32),
    unary main_c_42 main_v122 (broadcastInDim S2097152 ![] bcast_S_S2097152),
    binary main_v54 main_v122 main_v123 addi,
    ternary main_v121 main_v123 main_v54 main_v124 select,
    nullary main_c_43 (constantI S_ 32 0#32),
    unary main_c_43 main_v125 (broadcastInDim S2097152 ![] bcast_S_S2097152),
    binary main_v44 main_v125 main_v126 (cmpi .slt),
    nullary main_c_44 (constantI S_ 32 160#32),
    unary main_c_44 main_v127 (broadcastInDim S2097152 ![] bcast_S_S2097152),
    binary main_v44 main_v127 main_v128 addi,
    ternary main_v126 main_v128 main_v44 main_v129 select,
    unary main_v119 main_v130 (broadcastInDim S2097152x1 ![0] bcast_S2097152_S2097152x1_0),
    unary main_v124 main_v131 (broadcastInDim S2097152x1 ![0] bcast_S2097152_S2097152x1_0),
    unary main_v129 main_v132 (broadcastInDim S2097152x1 ![0] bcast_S2097152_S2097152x1_0),
    nary ![main_v130, main_v131, main_v132] main_v133 (fun u => concatenate S2097152x3 1 [⟨S2097152x1, u 0⟩, ⟨S2097152x1, u 1⟩, ⟨S2097152x1, u 2⟩] concatenates_S2097152x1_S2097152x1_S2097152x1_S2097152x3_d1),
    binary main_v0 main_v133 main_v134 (fun x i => Host.gather gather_S12x160x160x160_S2097152x3_S12x2097152_0_123_n_n_123_1_12111 x i),
    binary main_v63 main_v41 main_v135 mulf,
    binary main_v135 main_v59 main_v136 mulf,
    unary main_v136 main_v137 (broadcastInDim S1x2097152 ![1] bcast_S2097152_S1x2097152_1),
    unary main_v137 main_v138 (broadcastInDim S12x2097152 ![0, 1] bcast_S1x2097152_S12x2097152_0_1),
    binary main_v134 main_v138 main_v139 mulf,
    binary main_v114 main_v139 main_v140 addf ]

set_option maxHeartbeats 4000000 in
def ops5 : List (HloOp τ sig (Elt F)) :=
  [ nullary main_c_45 (constantI S_ 32 0#32),
    unary main_c_45 main_v141 (broadcastInDim S2097152 ![] bcast_S_S2097152),
    binary main_v48 main_v141 main_v142 (cmpi .slt),
    nullary main_c_46 (constantI S_ 32 160#32),
    unary main_c_46 main_v143 (broadcastInDim S2097152 ![] bcast_S_S2097152),
    binary main_v48 main_v143 main_v144 addi,
    ternary main_v142 main_v144 main_v48 main_v145 select,
    nullary main_c_47 (constantI S_ 32 0#32),
    unary main_c_47 main_v146 (broadcastInDim S2097152 ![] bcast_S_S2097152),
    binary main_v54 main_v146 main_v147 (cmpi .slt),
    nullary main_c_48 (constantI S_ 32 160#32),
    unary main_c_48 main_v148 (broadcastInDim S2097152 ![] bcast_S_S2097152),
    binary main_v54 main_v148 main_v149 addi,
    ternary main_v147 main_v149 main_v54 main_v150 select,
    nullary main_c_49 (constantI S_ 32 0#32),
    unary main_c_49 main_v151 (broadcastInDim S2097152 ![] bcast_S_S2097152),
    binary main_v51 main_v151 main_v152 (cmpi .slt),
    nullary main_c_50 (constantI S_ 32 160#32),
    unary main_c_50 main_v153 (broadcastInDim S2097152 ![] bcast_S_S2097152),
    binary main_v51 main_v153 main_v154 addi,
    ternary main_v152 main_v154 main_v51 main_v155 select,
    unary main_v145 main_v156 (broadcastInDim S2097152x1 ![0] bcast_S2097152_S2097152x1_0),
    unary main_v150 main_v157 (broadcastInDim S2097152x1 ![0] bcast_S2097152_S2097152x1_0),
    unary main_v155 main_v158 (broadcastInDim S2097152x1 ![0] bcast_S2097152_S2097152x1_0),
    nary ![main_v156, main_v157, main_v158] main_v159 (fun u => concatenate S2097152x3 1 [⟨S2097152x1, u 0⟩, ⟨S2097152x1, u 1⟩, ⟨S2097152x1, u 2⟩] concatenates_S2097152x1_S2097152x1_S2097152x1_S2097152x3_d1),
    binary main_v0 main_v159 main_v160 (fun x i => Host.gather gather_S12x160x160x160_S2097152x3_S12x2097152_0_123_n_n_123_1_12111 x i),
    binary main_v63 main_v41 main_v161 mulf,
    binary main_v161 main_v40 main_v162 mulf,
    unary main_v162 main_v163 (broadcastInDim S1x2097152 ![1] bcast_S2097152_S1x2097152_1),
    unary main_v163 main_v164 (broadcastInDim S12x2097152 ![0, 1] bcast_S1x2097152_S12x2097152_0_1),
    binary main_v160 main_v164 main_v165 mulf,
    binary main_v140 main_v165 main_v166 addf ]

set_option maxHeartbeats 4000000 in
def ops6 : List (HloOp τ sig (Elt F)) :=
  [ nullary main_c_51 (constantI S_ 32 0#32),
    unary main_c_51 main_v167 (broadcastInDim S2097152 ![] bcast_S_S2097152),
    binary main_v57 main_v167 main_v168 (cmpi .slt),
    nullary main_c_52 (constantI S_ 32 160#32),
    unary main_c_52 main_v169 (broadcastInDim S2097152 ![] bcast_S_S2097152),
    binary main_v57 main_v169 main_v170 addi,
    ternary main_v168 main_v170 main_v57 main_v171 select,
    nullary main_c_53 (constantI S_ 32 0#32),
    unary main_c_53 main_v172 (broadcastInDim S2097152 ![] bcast_S_S2097152),
    binary main_v46 main_v172 main_v173 (cmpi .slt),
    nullary main_c_54 (constantI S_ 32 160#32),
    unary main_c_54 main_v174 (broadcastInDim S2097152 ![] bcast_S_S2097152),
    binary main_v46 main_v174 main_v175 addi,
    ternary main_v173 main_v175 main_v46 main_v176 select,
    nullary main_c_55 (constantI S_ 32 0#32),
    unary main_c_55 main_v177 (broadcastInDim S2097152 ![] bcast_S_S2097152),
    binary main_v44 main_v177 main_v178 (cmpi .slt),
    nullary main_c_56 (constantI S_ 32 160#32),
    unary main_c_56 main_v179 (broadcastInDim S2097152 ![] bcast_S_S2097152),
    binary main_v44 main_v179 main_v180 addi,
    ternary main_v178 main_v180 main_v44 main_v181 select,
    unary main_v171 main_v182 (broadcastInDim S2097152x1 ![0] bcast_S2097152_S2097152x1_0),
    unary main_v176 main_v183 (broadcastInDim S2097152x1 ![0] bcast_S2097152_S2097152x1_0),
    unary main_v181 main_v184 (broadcastInDim S2097152x1 ![0] bcast_S2097152_S2097152x1_0),
    nary ![main_v182, main_v183, main_v184] main_v185 (fun u => concatenate S2097152x3 1 [⟨S2097152x1, u 0⟩, ⟨S2097152x1, u 1⟩, ⟨S2097152x1, u 2⟩] concatenates_S2097152x1_S2097152x1_S2097152x1_S2097152x3_d1),
    binary main_v0 main_v185 main_v186 (fun x i => Host.gather gather_S12x160x160x160_S2097152x3_S12x2097152_0_123_n_n_123_1_12111 x i),
    binary main_v42 main_v61 main_v187 mulf,
    binary main_v187 main_v59 main_v188 mulf,
    unary main_v188 main_v189 (broadcastInDim S1x2097152 ![1] bcast_S2097152_S1x2097152_1),
    unary main_v189 main_v190 (broadcastInDim S12x2097152 ![0, 1] bcast_S1x2097152_S12x2097152_0_1),
    binary main_v186 main_v190 main_v191 mulf,
    binary main_v166 main_v191 main_v192 addf ]

set_option maxHeartbeats 4000000 in
def ops7 : List (HloOp τ sig (Elt F)) :=
  [ nullary main_c_57 (constantI S_ 32 0#32),
    unary main_c_57 main_v193 (broadcastInDim S2097152 ![] bcast_S_S2097152),
    binary main_v57 main_v193 main_v194 (cmpi .slt),
    nullary main_c_58 (constantI S_ 32 160#32),
    unary main_c_58 main_v195 (broadcastInDim S2097152 ![] bcast_S_S2097152),
    binary main_v57 main_v195 main_v196 addi,
    ternary main_v194 main_v196 main_v57 main_v197 select,
    nullary main_c_59 (constantI S_ 32 0#32),
    unary main_c_59 main_v198 (broadcastInDim S2097152 ![] bcast_S_S2097152),
    binary main_v46 main_v198 main_v199 (cmpi .slt),
    nullary main_c_60 (constantI S_ 32 160#32),
    unary main_c_60 main_v200 (broadcastInDim S2097152 ![] bcast_S_S2097152),
    binary main_v46 main_v200 main_v201 addi,
    ternary main_v199 main_v201 main_v46 main_v202 select,
    nullary main_c_61 (constantI S_ 32 0#32),
    unary main_c_61 main_v203 (broadcastInDim S2097152 ![] bcast_S_S2097152),
    binary main_v51 main_v203 main_v204 (cmpi .slt),
    nullary main_c_62 (constantI S_ 32 160#32),
    unary main_c_62 main_v205 (broadcastInDim S2097152 ![] bcast_S_S2097152),
    binary main_v51 main_v205 main_v206 addi,
    ternary main_v204 main_v206 main_v51 main_v207 select,
    unary main_v197 main_v208 (broadcastInDim S2097152x1 ![0] bcast_S2097152_S2097152x1_0),
    unary main_v202 main_v209 (broadcastInDim S2097152x1 ![0] bcast_S2097152_S2097152x1_0),
    unary main_v207 main_v210 (broadcastInDim S2097152x1 ![0] bcast_S2097152_S2097152x1_0),
    nary ![main_v208, main_v209, main_v210] main_v211 (fun u => concatenate S2097152x3 1 [⟨S2097152x1, u 0⟩, ⟨S2097152x1, u 1⟩, ⟨S2097152x1, u 2⟩] concatenates_S2097152x1_S2097152x1_S2097152x1_S2097152x3_d1),
    binary main_v0 main_v211 main_v212 (fun x i => Host.gather gather_S12x160x160x160_S2097152x3_S12x2097152_0_123_n_n_123_1_12111 x i),
    binary main_v42 main_v61 main_v213 mulf,
    binary main_v213 main_v40 main_v214 mulf,
    unary main_v214 main_v215 (broadcastInDim S1x2097152 ![1] bcast_S2097152_S1x2097152_1),
    unary main_v215 main_v216 (broadcastInDim S12x2097152 ![0, 1] bcast_S1x2097152_S12x2097152_0_1),
    binary main_v212 main_v216 main_v217 mulf,
    binary main_v192 main_v217 main_v218 addf ]

set_option maxHeartbeats 4000000 in
def ops8 : List (HloOp τ sig (Elt F)) :=
  [ nullary main_c_63 (constantI S_ 32 0#32),
    unary main_c_63 main_v219 (broadcastInDim S2097152 ![] bcast_S_S2097152),
    binary main_v57 main_v219 main_v220 (cmpi .slt),
    nullary main_c_64 (constantI S_ 32 160#32),
    unary main_c_64 main_v221 (broadcastInDim S2097152 ![] bcast_S_S2097152),
    binary main_v57 main_v221 main_v222 addi,
    ternary main_v220 main_v222 main_v57 main_v223 select,
    nullary main_c_65 (constantI S_ 32 0#32),
    unary main_c_65 main_v224 (broadcastInDim S2097152 ![] bcast_S_S2097152),
    binary main_v54 main_v224 main_v225 (cmpi .slt),
    nullary main_c_66 (constantI S_ 32 160#32),
    unary main_c_66 main_v226 (broadcastInDim S2097152 ![] bcast_S_S2097152),
    binary main_v54 main_v226 main_v227 addi,
    ternary main_v225 main_v227 main_v54 main_v228 select,
    nullary main_c_67 (constantI S_ 32 0#32),
    unary main_c_67 main_v229 (broadcastInDim S2097152 ![] bcast_S_S2097152),
    binary main_v44 main_v229 main_v230 (cmpi .slt),
    nullary main_c_68 (constantI S_ 32 160#32),
    unary main_c_68 main_v231 (broadcastInDim S2097152 ![] bcast_S_S2097152),
    binary main_v44 main_v231 main_v232 addi,
    ternary main_v230 main_v232 main_v44 main_v233 select,
    unary main_v223 main_v234 (broadcastInDim S2097152x1 ![0] bcast_S2097152_S2097152x1_0),
    unary main_v228 main_v235 (broadcastInDim S2097152x1 ![0] bcast_S2097152_S2097152x1_0),
    unary main_v233 main_v236 (broadcastInDim S2097152x1 ![0] bcast_S2097152_S2097152x1_0),
    nary ![main_v234, main_v235, main_v236] main_v237 (fun u => concatenate S2097152x3 1 [⟨S2097152x1, u 0⟩, ⟨S2097152x1, u 1⟩, ⟨S2097152x1, u 2⟩] concatenates_S2097152x1_S2097152x1_S2097152x1_S2097152x3_d1),
    binary main_v0 main_v237 main_v238 (fun x i => Host.gather gather_S12x160x160x160_S2097152x3_S12x2097152_0_123_n_n_123_1_12111 x i),
    binary main_v42 main_v41 main_v239 mulf,
    binary main_v239 main_v59 main_v240 mulf,
    unary main_v240 main_v241 (broadcastInDim S1x2097152 ![1] bcast_S2097152_S1x2097152_1),
    unary main_v241 main_v242 (broadcastInDim S12x2097152 ![0, 1] bcast_S1x2097152_S12x2097152_0_1),
    binary main_v238 main_v242 main_v243 mulf,
    binary main_v218 main_v243 main_v244 addf ]

set_option maxHeartbeats 4000000 in
def ops9 : List (HloOp τ sig (Elt F)) :=
  [ nullary main_c_69 (constantI S_ 32 0#32),
    unary main_c_69 main_v245 (broadcastInDim S2097152 ![] bcast_S_S2097152),
    binary main_v57 main_v245 main_v246 (cmpi .slt),
    nullary main_c_70 (constantI S_ 32 160#32),
    unary main_c_70 main_v247 (broadcastInDim S2097152 ![] bcast_S_S2097152),
    binary main_v57 main_v247 main_v248 addi,
    ternary main_v246 main_v248 main_v57 main_v249 select,
    nullary main_c_71 (constantI S_ 32 0#32),
    unary main_c_71 main_v250 (broadcastInDim S2097152 ![] bcast_S_S2097152),
    binary main_v54 main_v250 main_v251 (cmpi .slt),
    nullary main_c_72 (constantI S_ 32 160#32),
    unary main_c_72 main_v252 (broadcastInDim S2097152 ![] bcast_S_S2097152),
    binary main_v54 main_v252 main_v253 addi,
    ternary main_v251 main_v253 main_v54 main_v254 select,
    nullary main_c_73 (constantI S_ 32 0#32),
    unary main_c_73 main_v255 (broadcastInDim S2097152 ![] bcast_S_S2097152),
    binary main_v51 main_v255 main_v256 (cmpi .slt),
    nullary main_c_74 (constantI S_ 32 160#32),
    unary main_c_74 main_v257 (broadcastInDim S2097152 ![] bcast_S_S2097152),
    binary main_v51 main_v257 main_v258 addi,
    ternary main_v256 main_v258 main_v51 main_v259 select,
    unary main_v249 main_v260 (broadcastInDim S2097152x1 ![0] bcast_S2097152_S2097152x1_0),
    unary main_v254 main_v261 (broadcastInDim S2097152x1 ![0] bcast_S2097152_S2097152x1_0),
    unary main_v259 main_v262 (broadcastInDim S2097152x1 ![0] bcast_S2097152_S2097152x1_0),
    nary ![main_v260, main_v261, main_v262] main_v263 (fun u => concatenate S2097152x3 1 [⟨S2097152x1, u 0⟩, ⟨S2097152x1, u 1⟩, ⟨S2097152x1, u 2⟩] concatenates_S2097152x1_S2097152x1_S2097152x1_S2097152x3_d1),
    binary main_v0 main_v263 main_v264 (fun x i => Host.gather gather_S12x160x160x160_S2097152x3_S12x2097152_0_123_n_n_123_1_12111 x i),
    binary main_v42 main_v41 main_v265 mulf,
    binary main_v265 main_v40 main_v266 mulf,
    unary main_v266 main_v267 (broadcastInDim S1x2097152 ![1] bcast_S2097152_S1x2097152_1),
    unary main_v267 main_v268 (broadcastInDim S12x2097152 ![0, 1] bcast_S1x2097152_S12x2097152_0_1),
    binary main_v264 main_v268 main_v269 mulf,
    binary main_v244 main_v269 main_v270 addf,
    unary main_v270 main_v271 (transpose S2097152x12 [1, 0] · transposes_S12x2097152_S2097152x12_1_0) ]

def stretches : List (List (HloOp τ sig (Elt F))) := [ops0, ops1, ops2, ops3, ops4, ops5, ops6, ops7, ops8, ops9]

def ops : List (HloOp τ sig (Elt F)) := stretches.flatten

theorem ops_sub : (ops : List (HloOp τ sig (Elt F))).Forall fun op => op.bufs ⊆ tcRefs τ sig :=
  forall_flatten (by
    refine ⟨?_, ?_, ?_, ?_, ?_, ?_, ?_, ?_, ?_, ?_⟩ <;>
      simp only [ops0, ops1, ops2, ops3, ops4, ops5, ops6, ops7, ops8, ops9, List.Forall, nullary_bufs_sub, unary_bufs_sub, binary_bufs_sub, ternary_bufs_sub, reshape_bufs_sub, nary_bufs_sub, and_self])

theorem ops_fresh : (ops : List (HloOp τ sig (Elt F))).Forall fun op => op.fresh = ∅ :=
  forall_flatten (by refine ⟨?_, ?_, ?_, ?_, ?_, ?_, ?_, ?_, ?_, ?_⟩ <;> (simp only [ops0, ops1, ops2, ops3, ops4, ops5, ops6, ops7, ops8, ops9, List.Forall]; repeat' constructor))

-- the references each stretch writes, stretch by stretch
abbrev Ws : List (List (Ref sig .tc)) :=
  [[main_v0, main_v1, main_v2, main_v3, main_v4, main_v5, main_v6, main_v7, main_v8, main_cst, main_v9, main_v10, main_cst_0, main_v11, main_v12, main_v13, main_v14, main_v15, main_v16, main_v17, main_v18, main_cst_1, main_v19, main_v20, main_cst_2, main_v21, main_v22, main_cst_3, main_v23, main_v24, main_cst_4, main_v25, main_v26, main_cst_5, main_v27, main_v28, main_cst_6, main_v29, main_v30, main_cst_7, main_v31, main_v32, main_cst_8, main_v33, main_v34, main_cst_9, main_v35, main_v36, main_v37, main_v38, main_v39, main_v40, main_v41, main_v42],
   [main_v43, main_c, main_c_10, main_call0_v0, main_call0_v1, main_call0_v2, main_call0_v3, main_call0_v4, main_v44, main_v45, main_c_11, main_c_12, main_call1_v0, main_call1_v1, main_call1_v2, main_call1_v3, main_call1_v4, main_v46, main_v47, main_c_13, main_c_14, main_call2_v0, main_call2_v1, main_call2_v2, main_call2_v3, main_call2_v4, main_v48, main_c_15, main_v49, main_v50, main_c_16, main_c_17, main_call3_v0, main_call3_v1, main_call3_v2, main_call3_v3, main_call3_v4, main_v51, main_c_18, main_v52, main_v53, main_c_19, main_c_20, main_call4_v0, main_call4_v1, main_call4_v2, main_call4_v3, main_call4_v4, main_v54, main_c_21, main_v55, main_v56, main_c_22, main_c_23, main_call5_v0, main_call5_v1, main_call5_v2, main_call5_v3, main_call5_v4, main_v57, main_cst_24, main_v58, main_v59, main_cst_25, main_v60, main_v61, main_cst_26, main_v62, main_v63],
   [main_c_27, main_v64, main_v65, main_c_28, main_v66, main_v67, main_v68, main_c_29, main_v69, main_v70, main_c_30, main_v71, main_v72, main_v73, main_c_31, main_v74, main_v75, main_c_32, main_v76, main_v77, main_v78, main_v79, main_v80, main_v81, main_v82, main_v83, main_v84, main_v85, main_v86, main_v87, main_v88],
   [main_c_33, main_v89, main_v90, main_c_34, main_v91, main_v92, main_v93, main_c_35, main_v94, main_v95, main_c_36, main_v96, main_v97, main_v98, main_c_37, main_v99, main_v100, main_c_38, main_v101, main_v102, main_v103, main_v104, main_v105, main_v106, main_v107, main_v108, main_v109, main_v110, main_v111, main_v112, main_v113, main_v114],
   [main_c_39, main_v115, main_v116, main_c_40, main_v117, main_v118, main_v119, main_c_41, main_v120, main_v121, main_c_42, main_v122, main_v123, main_v124, main_c_43, main_v125, main_v126, main_c_44, main_v127, main_v128, main_v129, main_v130, main_v131, main_v132, main_v133, main_v134, main_v135, main_v136, main_v137, main_v138, main_v139, main_v140],
   [main_c_45, main_v141, main_v142, main_c_46, main_v143, main_v144, main_v145, main_c_47, main_v146, main_v147, main_c_48, main_v148, main_v149, main_v150, main_c_49, main_v151, main_v152, main_c_50, main_v153, main_v154, main_v155, main_v156, main_v157, main_v158, main_v159, main_v160, main_v161, main_v162, main_v163, main_v164, main_v165, main_v166],
   [main_c_51, main_v167, main_v168, main_c_52, main_v169, main_v170, main_v171, main_c_53, main_v172, main_v173, main_c_54, main_v174, main_v175, main_v176, main_c_55, main_v177, main_v178, main_c_56, main_v179, main_v180, main_v181, main_v182, main_v183, main_v184, main_v185, main_v186, main_v187, main_v188, main_v189, main_v190, main_v191, main_v192],
   [main_c_57, main_v193, main_v194, main_c_58, main_v195, main_v196, main_v197, main_c_59, main_v198, main_v199, main_c_60, main_v200, main_v201, main_v202, main_c_61, main_v203, main_v204, main_c_62, main_v205, main_v206, main_v207, main_v208, main_v209, main_v210, main_v211, main_v212, main_v213, main_v214, main_v215, main_v216, main_v217, main_v218],
   [main_c_63, main_v219, main_v220, main_c_64, main_v221, main_v222, main_v223, main_c_65, main_v224, main_v225, main_c_66, main_v226, main_v227, main_v228, main_c_67, main_v229, main_v230, main_c_68, main_v231, main_v232, main_v233, main_v234, main_v235, main_v236, main_v237, main_v238, main_v239, main_v240, main_v241, main_v242, main_v243, main_v244],
   [main_c_69, main_v245, main_v246, main_c_70, main_v247, main_v248, main_v249, main_c_71, main_v250, main_v251, main_c_72, main_v252, main_v253, main_v254, main_c_73, main_v255, main_v256, main_c_74, main_v257, main_v258, main_v259, main_v260, main_v261, main_v262, main_v263, main_v264, main_v265, main_v266, main_v267, main_v268, main_v269, main_v270, main_v271]]

set_option maxHeartbeats 4000000 in
theorem covers : List.Forall₂ WritesIn (stretches (F := F)) Ws := forall₂_writesIn_of_eq rfl

def val (k : Nat) (V0 : Valuation τ sig (Elt F)) : Valuation τ sig (Elt F) := afterN stretches V0 k

theorem val_keep (V0 : Valuation τ sig (Elt F)) (k : Nat) (r : Ref sig .tc) (h : r ∉ Ws.getD k []) :
    val (k + 1) V0 (no_index (Proc.devRef .tc r)) = val k V0 (Proc.devRef .tc r) :=
  afterN_keep covers V0 k r h

end Cert.ReferenceIdeal.HostRun

end
-- ==== Proof.LibNary3.lean ====
import Idealize.ShloMosaic.Lib.StableHlo.Run

-- An operation over a literal family of three references: its result, with each operand's contents at its own reference.

namespace Idealize.ShloMosaic.StableHlo

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.RefRun.lean ====
import proofs.«109906_j49606872269475_1_alg».proof.Proof.RefHostTable
import proofs.«109906_j49606872269475_1_alg».proof.Proof.RefStages
import proofs.«109906_j49606872269475_1_alg».proof.Proof.LibNary3

-- The reference's run: every buffer a later stretch reads is one of the named arrays of the inputs. A corner's stretch is
-- cut before its concatenate: the three index columns are read first, then joined.

set_option maxRecDepth 8192

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.ReferenceIdeal.Stages

variable {F : FTy → Type} [FloatOps F]

macro "read_results" : tactic =>
  `(tactic| (simp (disch := decide) only [after_cons, after_nil,
      nullary_result', unary_result', binary_result', ternary_result', reshape_result',
      nullary_result_ne', unary_result_ne', binary_result_ne', ternary_result_ne', reshape_result_ne']))

theorem after_take_drop (n : Nat) (l : List (HloOp τ sig (Elt F))) (V : Valuation τ sig (Elt F)) :
    after l V = after (l.drop n) (after (l.take n) V) := by
  rw [← after_append, List.take_append_drop]

theorem after_take_keep {W : List (Ref sig .tc)} {r : Ref sig .tc} (n : Nat) (l : List (HloOp τ sig (Elt F)))
    (V : Valuation τ sig (Elt F)) (hW : l.Forall fun op => op.writes ⊆ (W.map (Proc.devRef (τ := τ) .tc)).toFinset)
    (hr : r ∉ W) : after (l.take n) V (Proc.devRef .tc r) = V (Proc.devRef .tc r) :=
  after_of_writes_sub (l.take n) V
    (List.forall_iff_forall_mem.mpr fun op hop => List.forall_iff_forall_mem.mp hW op (List.mem_of_mem_take hop)) hr

macro "keep_down" : tactic => `(tactic| (simp (disch := decide) only [val_keep]))

abbrev args (V0 : Valuation τ sig (Elt F)) : Args F :=
  ⟨V0 (Proc.devRef .tc main_arg0), V0 (Proc.devRef .tc main_arg1), V0 (Proc.devRef .tc main_arg2), V0 (Proc.devRef .tc main_arg3)⟩

set_option maxHeartbeats 2000000 in
theorem val1_v0 (V0 : Valuation τ sig (Elt F)) :
    val 1 V0 (no_index (Proc.devRef .tc main_v0)) = table (args V0) := by
  show after ops0 (val 0 V0) _ = _; simp only [ops0]; read_results; rfl

set_option maxHeartbeats 2000000 in
theorem val1_v37 (V0 : Valuation τ sig (Elt F)) :
    val 1 V0 (no_index (Proc.devRef .tc main_v37)) = Host.floor (px (args V0)) := by
  show after ops0 (val 0 V0) _ = _; simp only [ops0]; read_results; rfl

set_option maxHeartbeats 2000000 in
theorem val1_v38 (V0 : Valuation τ sig (Elt F)) :
    val 1 V0 (no_index (Proc.devRef .tc main_v38)) = Host.floor (py (args V0)) := by
  show after ops0 (val 0 V0) _ = _; simp only [ops0]; read_results; rfl

set_option maxHeartbeats 2000000 in
theorem val1_v39 (V0 : Valuation τ sig (Elt F)) :
    val 1 V0 (no_index (Proc.devRef .tc main_v39)) = Host.floor (pz (args V0)) := by
  show after ops0 (val 0 V0) _ = _; simp only [ops0]; read_results; rfl

set_option maxHeartbeats 2000000 in
theorem val1_v40 (V0 : Valuation τ sig (Elt F)) :
    val 1 V0 (no_index (Proc.devRef .tc main_v40)) = fx (args V0) := by
  show after ops0 (val 0 V0) _ = _; simp only [ops0]; read_results; rfl

set_option maxHeartbeats 2000000 in
theorem val1_v41 (V0 : Valuation τ sig (Elt F)) :
    val 1 V0 (no_index (Proc.devRef .tc main_v41)) = fy (args V0) := by
  show after ops0 (val 0 V0) _ = _; simp only [ops0]; read_results; rfl

set_option maxHeartbeats 2000000 in
theorem val1_v42 (V0 : Valuation τ sig (Elt F)) :
    val 1 V0 (no_index (Proc.devRef .tc main_v42)) = fz (args V0) := by
  show after ops0 (val 0 V0) _ = _; simp only [ops0]; read_results; rfl

set_option maxHeartbeats 2000000 in
theorem val2_v44 (V0 : Valuation τ sig (Elt F)) :
    val 2 V0 (no_index (Proc.devRef .tc main_v44)) = x0 (args V0) := by
  show after ops1 (val 1 V0) _ = _; simp only [ops1]; read_results
  simp only [TRef.ofBuf, TRef.toBuf, cast_eq, val1_v37]
  rfl

set_option maxHeartbeats 2000000 in
theorem val2_v46 (V0 : Valuation τ sig (Elt F)) :
    val 2 V0 (no_index (Proc.devRef .tc main_v46)) = y0 (args V0) := by
  show after ops1 (val 1 V0) _ = _; simp only [ops1]; read_results
  simp only [TRef.ofBuf, TRef.toBuf, cast_eq, val1_v38]
  rfl

set_option maxHeartbeats 2000000 in
theorem val2_v48 (V0 : Valuation τ sig (Elt F)) :
    val 2 V0 (no_index (Proc.devRef .tc main_v48)) = z0 (args V0) := by
  show after ops1 (val 1 V0) _ = _; simp only [ops1]; read_results
  simp only [TRef.ofBuf, TRef.toBuf, cast_eq, val1_v39]
  rfl

set_option maxHeartbeats 2000000 in
theorem val2_v51 (V0 : Valuation τ sig (Elt F)) :
    val 2 V0 (no_index (Proc.devRef .tc main_v51)) = x1 (args V0) := by
  show after ops1 (val 1 V0) _ = _; simp only [ops1]; read_results
  simp only [TRef.ofBuf, TRef.toBuf, cast_eq, val1_v37]
  rfl

set_option maxHeartbeats 2000000 in
theorem val2_v54 (V0 : Valuation τ sig (Elt F)) :
    val 2 V0 (no_index (Proc.devRef .tc main_v54)) = y1 (args V0) := by
  show after ops1 (val 1 V0) _ = _; simp only [ops1]; read_results
  simp only [TRef.ofBuf, TRef.toBuf, cast_eq, val1_v38]
  rfl

set_option maxHeartbeats 2000000 in
theorem val2_v57 (V0 : Valuation τ sig (Elt F)) :
    val 2 V0 (no_index (Proc.devRef .tc main_v57)) = z1 (args V0) := by
  show after ops1 (val 1 V0) _ = _; simp only [ops1]; read_results
  simp only [TRef.ofBuf, TRef.toBuf, cast_eq, val1_v39]
  rfl

set_option maxHeartbeats 2000000 in
theorem val2_v59 (V0 : Valuation τ sig (Elt F)) :
    val 2 V0 (no_index (Proc.devRef .tc main_v59)) = lower (fx (args V0)) := by
  show after ops1 (val 1 V0) _ = _; simp only [ops1]; read_results
  simp only [val1_v40]
  rfl

set_option maxHeartbeats 2000000 in
theorem val2_v61 (V0 : Valuation τ sig (Elt F)) :
    val 2 V0 (no_index (Proc.devRef .tc main_v61)) = lower (fy (args V0)) := by
  show after ops1 (val 1 V0) _ = _; simp only [ops1]; read_results
  simp only [val1_v41]
  rfl

set_option maxHeartbeats 2000000 in
theorem val2_v63 (V0 : Valuation τ sig (Elt F)) :
    val 2 V0 (no_index (Proc.devRef .tc main_v63)) = lower (fz (args V0)) := by
  show after ops1 (val 1 V0) _ = _; simp only [ops1]; read_results
  simp only [val1_v42]
  rfl

def P2 (V0 : Valuation τ sig (Elt F)) : Valuation τ sig (Elt F) := after (ops2.take 24) (val 2 V0)

theorem val3_cut (V0 : Valuation τ sig (Elt F)) : val 3 V0 = after (ops2.drop 24) (P2 V0) :=
  after_take_drop 24 ops2 (val 2 V0)

theorem P2_keep' (V0 : Valuation τ sig (Elt F)) (r : Ref sig .tc) (h : r ∉ Ws.getD 2 []) :
    P2 V0 (no_index (Proc.devRef .tc r)) = val 2 V0 (Proc.devRef .tc r) := after_take_keep 24 ops2 _ (writesIn_getD covers 2) h

theorem concat_v82 (G : Valuation τ sig (Elt F)) (hxs hy) :
    (nary (τ := τ) ![main_v79, main_v80, main_v81] main_v82
        (fun u => concatenate S2097152x3 1 [⟨S2097152x1, u 0⟩, ⟨S2097152x1, u 1⟩, ⟨S2097152x1, u 2⟩]
          concatenates_S2097152x1_S2097152x1_S2097152x1_S2097152x3_d1) hxs hy).result G (no_index (Proc.devRef .tc main_v82))
      = concatenate S2097152x3 1 [⟨S2097152x1, G (Proc.devRef .tc main_v79)⟩, ⟨S2097152x1, G (Proc.devRef .tc main_v80)⟩,
          ⟨S2097152x1, G (Proc.devRef .tc main_v81)⟩] concatenates_S2097152x1_S2097152x1_S2097152x1_S2097152x3_d1 :=
  (nary3_result' _ hxs hy G).trans rfl

set_option maxHeartbeats 2000000 in
theorem P2_v79 (V0 : Valuation τ sig (Elt F)) :
    P2 V0 (Proc.devRef .tc main_v79) = col (z0 (args V0)) := by
  unfold P2; simp only [ops2, List.take]; read_results
  simp only [val2_v48]
  rfl

set_option maxHeartbeats 2000000 in
theorem P2_v80 (V0 : Valuation τ sig (Elt F)) :
    P2 V0 (Proc.devRef .tc main_v80) = col (y0 (args V0)) := by
  unfold P2; simp only [ops2, List.take]; read_results
  simp only [val2_v46]
  rfl

set_option maxHeartbeats 2000000 in
theorem P2_v81 (V0 : Valuation τ sig (Elt F)) :
    P2 V0 (Proc.devRef .tc main_v81) = col (x0 (args V0)) := by
  unfold P2; simp only [ops2, List.take]; read_results
  simp only [val2_v44]
  rfl

set_option maxHeartbeats 2000000 in
theorem val3_v88 (V0 : Valuation τ sig (Elt F)) :
    val 3 V0 (no_index (Proc.devRef .tc main_v88)) = s1 (args V0) := by
  rw [val3_cut]; simp only [ops2, List.drop]
  simp (disch := decide) only [after_cons, after_nil, nullary_result', unary_result', binary_result', concat_v82,
    nullary_result_ne', unary_result_ne', binary_result_ne', nary_result_ne']
  rw [P2_v79, P2_v80, P2_v81]
  simp (disch := decide) only [P2_keep']
  keep_down
  simp only [val2_v63, val2_v61, val2_v59, val1_v0]
  rfl

def P3 (V0 : Valuation τ sig (Elt F)) : Valuation τ sig (Elt F) := after (ops3.take 24) (val 3 V0)

theorem val4_cut (V0 : Valuation τ sig (Elt F)) : val 4 V0 = after (ops3.drop 24) (P3 V0) :=
  after_take_drop 24 ops3 (val 3 V0)

theorem P3_keep' (V0 : Valuation τ sig (Elt F)) (r : Ref sig .tc) (h : r ∉ Ws.getD 3 []) :
    P3 V0 (no_index (Proc.devRef .tc r)) = val 3 V0 (Proc.devRef .tc r) := after_take_keep 24 ops3 _ (writesIn_getD covers 3) h

theorem concat_v107 (G : Valuation τ sig (Elt F)) (hxs hy) :
    (nary (τ := τ) ![main_v104, main_v105, main_v106] main_v107
        (fun u => concatenate S2097152x3 1 [⟨S2097152x1, u 0⟩, ⟨S2097152x1, u 1⟩, ⟨S2097152x1, u 2⟩]
          concatenates_S2097152x1_S2097152x1_S2097152x1_S2097152x3_d1) hxs hy).result G (no_index (Proc.devRef .tc main_v107))
      = concatenate S2097152x3 1 [⟨S2097152x1, G (Proc.devRef .tc main_v104)⟩, ⟨S2097152x1, G (Proc.devRef .tc main_v105)⟩,
          ⟨S2097152x1, G (Proc.devRef .tc main_v106)⟩] concatenates_S2097152x1_S2097152x1_S2097152x1_S2097152x3_d1 :=
  (nary3_result' _ hxs hy G).trans rfl

set_option maxHeartbeats 2000000 in
theorem P3_v104 (V0 : Valuation τ sig (Elt F)) :
    P3 V0 (Proc.devRef .tc main_v104) = col (z0 (args V0)) := by
  unfold P3; simp only [ops3, List.take]; read_results
  keep_down
  simp only [val2_v48]
  rfl

set_option maxHeartbeats 2000000 in
theorem P3_v105 (V0 : Valuation τ sig (Elt F)) :
    P3 V0 (Proc.devRef .tc main_v105) = col (y0 (args V0)) := by
  unfold P3; simp only [ops3, List.take]; read_results
  keep_down
  simp only [val2_v46]
  rfl

set_option maxHeartbeats 2000000 in
theorem P3_v106 (V0 : Valuation τ sig (Elt F)) :
    P3 V0 (Proc.devRef .tc main_v106) = col (x1 (args V0)) := by
  unfold P3; simp only [ops3, List.take]; read_results
  keep_down
  simp only [val2_v51]
  rfl

set_option maxHeartbeats 2000000 in
theorem val4_v114 (V0 : Valuation τ sig (Elt F)) :
    val 4 V0 (no_index (Proc.devRef .tc main_v114)) = s2 (args V0) := by
  rw [val4_cut]; simp only [ops3, List.drop]
  simp (disch := decide) only [after_cons, after_nil, nullary_result', unary_result', binary_result', concat_v107,
    nullary_result_ne', unary_result_ne', binary_result_ne', nary_result_ne']
  rw [P3_v104, P3_v105, P3_v106]
  simp (disch := decide) only [P3_keep']
  keep_down
  simp only [val3_v88, val2_v63, val2_v61, val1_v40, val1_v0]
  rfl

def P4 (V0 : Valuation τ sig (Elt F)) : Valuation τ sig (Elt F) := after (ops4.take 24) (val 4 V0)

theorem val5_cut (V0 : Valuation τ sig (Elt F)) : val 5 V0 = after (ops4.drop 24) (P4 V0) :=
  after_take_drop 24 ops4 (val 4 V0)

theorem P4_keep' (V0 : Valuation τ sig (Elt F)) (r : Ref sig .tc) (h : r ∉ Ws.getD 4 []) :
    P4 V0 (no_index (Proc.devRef .tc r)) = val 4 V0 (Proc.devRef .tc r) := after_take_keep 24 ops4 _ (writesIn_getD covers 4) h

theorem concat_v133 (G : Valuation τ sig (Elt F)) (hxs hy) :
    (nary (τ := τ) ![main_v130, main_v131, main_v132] main_v133
        (fun u => concatenate S2097152x3 1 [⟨S2097152x1, u 0⟩, ⟨S2097152x1, u 1⟩, ⟨S2097152x1, u 2⟩]
          concatenates_S2097152x1_S2097152x1_S2097152x1_S2097152x3_d1) hxs hy).result G (no_index (Proc.devRef .tc main_v133))
      = concatenate S2097152x3 1 [⟨S2097152x1, G (Proc.devRef .tc main_v130)⟩, ⟨S2097152x1, G (Proc.devRef .tc main_v131)⟩,
          ⟨S2097152x1, G (Proc.devRef .tc main_v132)⟩] concatenates_S2097152x1_S2097152x1_S2097152x1_S2097152x3_d1 :=
  (nary3_result' _ hxs hy G).trans rfl

set_option maxHeartbeats 2000000 in
theorem P4_v130 (V0 : Valuation τ sig (Elt F)) :
    P4 V0 (Proc.devRef .tc main_v130) = col (z0 (args V0)) := by
  unfold P4; simp only [ops4, List.take]; read_results
  keep_down
  simp only [val2_v48]
  rfl

set_option maxHeartbeats 2000000 in
theorem P4_v131 (V0 : Valuation τ sig (Elt F)) :
    P4 V0 (Proc.devRef .tc main_v131) = col (y1 (args V0)) := by
  unfold P4; simp only [ops4, List.take]; read_results
  keep_down
  simp only [val2_v54]
  rfl

set_option maxHeartbeats 2000000 in
theorem P4_v132 (V0 : Valuation τ sig (Elt F)) :
    P4 V0 (Proc.devRef .tc main_v132) = col (x0 (args V0)) := by
  unfold P4; simp only [ops4, List.take]; read_results
  keep_down
  simp only [val2_v44]
  rfl

set_option maxHeartbeats 2000000 in
theorem val5_v140 (V0 : Valuation τ sig (Elt F)) :
    val 5 V0 (no_index (Proc.devRef .tc main_v140)) = s3 (args V0) := by
  rw [val5_cut]; simp only [ops4, List.drop]
  simp (disch := decide) only [after_cons, after_nil, nullary_result', unary_result', binary_result', concat_v133,
    nullary_result_ne', unary_result_ne', binary_result_ne', nary_result_ne']
  rw [P4_v130, P4_v131, P4_v132]
  simp (disch := decide) only [P4_keep']
  keep_down
  simp only [val4_v114, val2_v63, val1_v41, val2_v59, val1_v0]
  rfl

def P5 (V0 : Valuation τ sig (Elt F)) : Valuation τ sig (Elt F) := after (ops5.take 24) (val 5 V0)

theorem val6_cut (V0 : Valuation τ sig (Elt F)) : val 6 V0 = after (ops5.drop 24) (P5 V0) :=
  after_take_drop 24 ops5 (val 5 V0)

theorem P5_keep' (V0 : Valuation τ sig (Elt F)) (r : Ref sig .tc) (h : r ∉ Ws.getD 5 []) :
    P5 V0 (no_index (Proc.devRef .tc r)) = val 5 V0 (Proc.devRef .tc r) := after_take_keep 24 ops5 _ (writesIn_getD covers 5) h

theorem concat_v159 (G : Valuation τ sig (Elt F)) (hxs hy) :
    (nary (τ := τ) ![main_v156, main_v157, main_v158] main_v159
        (fun u => concatenate S2097152x3 1 [⟨S2097152x1, u 0⟩, ⟨S2097152x1, u 1⟩, ⟨S2097152x1, u 2⟩]
          concatenates_S2097152x1_S2097152x1_S2097152x1_S2097152x3_d1) hxs hy).result G (no_index (Proc.devRef .tc main_v159))
      = concatenate S2097152x3 1 [⟨S2097152x1, G (Proc.devRef .tc main_v156)⟩, ⟨S2097152x1, G (Proc.devRef .tc main_v157)⟩,
          ⟨S2097152x1, G (Proc.devRef .tc main_v158)⟩] concatenates_S2097152x1_S2097152x1_S2097152x1_S2097152x3_d1 :=
  (nary3_result' _ hxs hy G).trans rfl

set_option maxHeartbeats 2000000 in
theorem P5_v156 (V0 : Valuation τ sig (Elt F)) :
    P5 V0 (Proc.devRef .tc main_v156) = col (z0 (args V0)) := by
  unfold P5; simp only [ops5, List.take]; read_results
  keep_down
  simp only [val2_v48]
  rfl

set_option maxHeartbeats 2000000 in
theorem P5_v157 (V0 : Valuation τ sig (Elt F)) :
    P5 V0 (Proc.devRef .tc main_v157) = col (y1 (args V0)) := by
  unfold P5; simp only [ops5, List.take]; read_results
  keep_down
  simp only [val2_v54]
  rfl

set_option maxHeartbeats 2000000 in
theorem P5_v158 (V0 : Valuation τ sig (Elt F)) :
    P5 V0 (Proc.devRef .tc main_v158) = col (x1 (args V0)) := by
  unfold P5; simp only [ops5, List.take]; read_results
  keep_down
  simp only [val2_v51]
  rfl

set_option maxHeartbeats 2000000 in
theorem val6_v166 (V0 : Valuation τ sig (Elt F)) :
    val 6 V0 (no_index (Proc.devRef .tc main_v166)) = s4 (args V0) := by
  rw [val6_cut]; simp only [ops5, List.drop]
  simp (disch := decide) only [after_cons, after_nil, nullary_result', unary_result', binary_result', concat_v159,
    nullary_result_ne', unary_result_ne', binary_result_ne', nary_result_ne']
  rw [P5_v156, P5_v157, P5_v158]
  simp (disch := decide) only [P5_keep']
  keep_down
  simp only [val5_v140, val2_v63, val1_v41, val1_v40, val1_v0]
  rfl

def P6 (V0 : Valuation τ sig (Elt F)) : Valuation τ sig (Elt F) := after (ops6.take 24) (val 6 V0)

theorem val7_cut (V0 : Valuation τ sig (Elt F)) : val 7 V0 = after (ops6.drop 24) (P6 V0) :=
  after_take_drop 24 ops6 (val 6 V0)

theorem P6_keep' (V0 : Valuation τ sig (Elt F)) (r : Ref sig .tc) (h : r ∉ Ws.getD 6 []) :
    P6 V0 (no_index (Proc.devRef .tc r)) = val 6 V0 (Proc.devRef .tc r) := after_take_keep 24 ops6 _ (writesIn_getD covers 6) h

theorem concat_v185 (G : Valuation τ sig (Elt F)) (hxs hy) :
    (nary (τ := τ) ![main_v182, main_v183, main_v184] main_v185
        (fun u => concatenate S2097152x3 1 [⟨S2097152x1, u 0⟩, ⟨S2097152x1, u 1⟩, ⟨S2097152x1, u 2⟩]
          concatenates_S2097152x1_S2097152x1_S2097152x1_S2097152x3_d1) hxs hy).result G (no_index (Proc.devRef .tc main_v185))
      = concatenate S2097152x3 1 [⟨S2097152x1, G (Proc.devRef .tc main_v182)⟩, ⟨S2097152x1, G (Proc.devRef .tc main_v183)⟩,
          ⟨S2097152x1, G (Proc.devRef .tc main_v184)⟩] concatenates_S2097152x1_S2097152x1_S2097152x1_S2097152x3_d1 :=
  (nary3_result' _ hxs hy G).trans rfl

set_option maxHeartbeats 2000000 in
theorem P6_v182 (V0 : Valuation τ sig (Elt F)) :
    P6 V0 (Proc.devRef .tc main_v182) = col (z1 (args V0)) := by
  unfold P6; simp only [ops6, List.take]; read_results
  keep_down
  simp only [val2_v57]
  rfl

set_option maxHeartbeats 2000000 in
theorem P6_v183 (V0 : Valuation τ sig (Elt F)) :
    P6 V0 (Proc.devRef .tc main_v183) = col (y0 (args V0)) := by
  unfold P6; simp only [ops6, List.take]; read_results
  keep_down
  simp only [val2_v46]
  rfl

set_option maxHeartbeats 2000000 in
theorem P6_v184 (V0 : Valuation τ sig (Elt F)) :
    P6 V0 (Proc.devRef .tc main_v184) = col (x0 (args V0)) := by
  unfold P6; simp only [ops6, List.take]; read_results
  keep_down
  simp only [val2_v44]
  rfl

set_option maxHeartbeats 2000000 in
theorem val7_v192 (V0 : Valuation τ sig (Elt F)) :
    val 7 V0 (no_index (Proc.devRef .tc main_v192)) = s5 (args V0) := by
  rw [val7_cut]; simp only [ops6, List.drop]
  simp (disch := decide) only [after_cons, after_nil, nullary_result', unary_result', binary_result', concat_v185,
    nullary_result_ne', unary_result_ne', binary_result_ne', nary_result_ne']
  rw [P6_v182, P6_v183, P6_v184]
  simp (disch := decide) only [P6_keep']
  keep_down
  simp only [val6_v166, val1_v42, val2_v61, val2_v59, val1_v0]
  rfl

def P7 (V0 : Valuation τ sig (Elt F)) : Valuation τ sig (Elt F) := after (ops7.take 24) (val 7 V0)

theorem val8_cut (V0 : Valuation τ sig (Elt F)) : val 8 V0 = after (ops7.drop 24) (P7 V0) :=
  after_take_drop 24 ops7 (val 7 V0)

theorem P7_keep' (V0 : Valuation τ sig (Elt F)) (r : Ref sig .tc) (h : r ∉ Ws.getD 7 []) :
    P7 V0 (no_index (Proc.devRef .tc r)) = val 7 V0 (Proc.devRef .tc r) := after_take_keep 24 ops7 _ (writesIn_getD covers 7) h

theorem concat_v211 (G : Valuation τ sig (Elt F)) (hxs hy) :
    (nary (τ := τ) ![main_v208, main_v209, main_v210] main_v211
        (fun u => concatenate S2097152x3 1 [⟨S2097152x1, u 0⟩, ⟨S2097152x1, u 1⟩, ⟨S2097152x1, u 2⟩]
          concatenates_S2097152x1_S2097152x1_S2097152x1_S2097152x3_d1) hxs hy).result G (no_index (Proc.devRef .tc main_v211))
      = concatenate S2097152x3 1 [⟨S2097152x1, G (Proc.devRef .tc main_v208)⟩, ⟨S2097152x1, G (Proc.devRef .tc main_v209)⟩,
          ⟨S2097152x1, G (Proc.devRef .tc main_v210)⟩] concatenates_S2097152x1_S2097152x1_S2097152x1_S2097152x3_d1 :=
  (nary3_result' _ hxs hy G).trans rfl

set_option maxHeartbeats 2000000 in
theorem P7_v208 (V0 : Valuation τ sig (Elt F)) :
    P7 V0 (Proc.devRef .tc main_v208) = col (z1 (args V0)) := by
  unfold P7; simp only [ops7, List.take]; read_results
  keep_down
  simp only [val2_v57]
  rfl

set_option maxHeartbeats 2000000 in
theorem P7_v209 (V0 : Valuation τ sig (Elt F)) :
    P7 V0 (Proc.devRef .tc main_v209) = col (y0 (args V0)) := by
  unfold P7; simp only [ops7, List.take]; read_results
  keep_down
  simp only [val2_v46]
  rfl

set_option maxHeartbeats 2000000 in
theorem P7_v210 (V0 : Valuation τ sig (Elt F)) :
    P7 V0 (Proc.devRef .tc main_v210) = col (x1 (args V0)) := by
  unfold P7; simp only [ops7, List.take]; read_results
  keep_down
  simp only [val2_v51]
  rfl

set_option maxHeartbeats 2000000 in
theorem val8_v218 (V0 : Valuation τ sig (Elt F)) :
    val 8 V0 (no_index (Proc.devRef .tc main_v218)) = s6 (args V0) := by
  rw [val8_cut]; simp only [ops7, List.drop]
  simp (disch := decide) only [after_cons, after_nil, nullary_result', unary_result', binary_result', concat_v211,
    nullary_result_ne', unary_result_ne', binary_result_ne', nary_result_ne']
  rw [P7_v208, P7_v209, P7_v210]
  simp (disch := decide) only [P7_keep']
  keep_down
  simp only [val7_v192, val1_v42, val2_v61, val1_v40, val1_v0]
  rfl

def P8 (V0 : Valuation τ sig (Elt F)) : Valuation τ sig (Elt F) := after (ops8.take 24) (val 8 V0)

theorem val9_cut (V0 : Valuation τ sig (Elt F)) : val 9 V0 = after (ops8.drop 24) (P8 V0) :=
  after_take_drop 24 ops8 (val 8 V0)

theorem P8_keep' (V0 : Valuation τ sig (Elt F)) (r : Ref sig .tc) (h : r ∉ Ws.getD 8 []) :
    P8 V0 (no_index (Proc.devRef .tc r)) = val 8 V0 (Proc.devRef .tc r) := after_take_keep 24 ops8 _ (writesIn_getD covers 8) h

theorem concat_v237 (G : Valuation τ sig (Elt F)) (hxs hy) :
    (nary (τ := τ) ![main_v234, main_v235, main_v236] main_v237
        (fun u => concatenate S2097152x3 1 [⟨S2097152x1, u 0⟩, ⟨S2097152x1, u 1⟩, ⟨S2097152x1, u 2⟩]
          concatenates_S2097152x1_S2097152x1_S2097152x1_S2097152x3_d1) hxs hy).result G (no_index (Proc.devRef .tc main_v237))
      = concatenate S2097152x3 1 [⟨S2097152x1, G (Proc.devRef .tc main_v234)⟩, ⟨S2097152x1, G (Proc.devRef .tc main_v235)⟩,
          ⟨S2097152x1, G (Proc.devRef .tc main_v236)⟩] concatenates_S2097152x1_S2097152x1_S2097152x1_S2097152x3_d1 :=
  (nary3_result' _ hxs hy G).trans rfl

set_option maxHeartbeats 2000000 in
theorem P8_v234 (V0 : Valuation τ sig (Elt F)) :
    P8 V0 (Proc.devRef .tc main_v234) = col (z1 (args V0)) := by
  unfold P8; simp only [ops8, List.take]; read_results
  keep_down
  simp only [val2_v57]
  rfl

set_option maxHeartbeats 2000000 in
theorem P8_v235 (V0 : Valuation τ sig (Elt F)) :
    P8 V0 (Proc.devRef .tc main_v235) = col (y1 (args V0)) := by
  unfold P8; simp only [ops8, List.take]; read_results
  keep_down
  simp only [val2_v54]
  rfl

set_option maxHeartbeats 2000000 in
theorem P8_v236 (V0 : Valuation τ sig (Elt F)) :
    P8 V0 (Proc.devRef .tc main_v236) = col (x0 (args V0)) := by
  unfold P8; simp only [ops8, List.take]; read_results
  keep_down
  simp only [val2_v44]
  rfl

set_option maxHeartbeats 2000000 in
theorem val9_v244 (V0 : Valuation τ sig (Elt F)) :
    val 9 V0 (no_index (Proc.devRef .tc main_v244)) = s7 (args V0) := by
  rw [val9_cut]; simp only [ops8, List.drop]
  simp (disch := decide) only [after_cons, after_nil, nullary_result', unary_result', binary_result', concat_v237,
    nullary_result_ne', unary_result_ne', binary_result_ne', nary_result_ne']
  rw [P8_v234, P8_v235, P8_v236]
  simp (disch := decide) only [P8_keep']
  keep_down
  simp only [val8_v218, val1_v42, val1_v41, val2_v59, val1_v0]
  rfl

def P9 (V0 : Valuation τ sig (Elt F)) : Valuation τ sig (Elt F) := after (ops9.take 24) (val 9 V0)

theorem val10_cut (V0 : Valuation τ sig (Elt F)) : val 10 V0 = after (ops9.drop 24) (P9 V0) :=
  after_take_drop 24 ops9 (val 9 V0)

theorem P9_keep' (V0 : Valuation τ sig (Elt F)) (r : Ref sig .tc) (h : r ∉ Ws.getD 9 []) :
    P9 V0 (no_index (Proc.devRef .tc r)) = val 9 V0 (Proc.devRef .tc r) := after_take_keep 24 ops9 _ (writesIn_getD covers 9) h

theorem concat_v263 (G : Valuation τ sig (Elt F)) (hxs hy) :
    (nary (τ := τ) ![main_v260, main_v261, main_v262] main_v263
        (fun u => concatenate S2097152x3 1 [⟨S2097152x1, u 0⟩, ⟨S2097152x1, u 1⟩, ⟨S2097152x1, u 2⟩]
          concatenates_S2097152x1_S2097152x1_S2097152x1_S2097152x3_d1) hxs hy).result G (no_index (Proc.devRef .tc main_v263))
      = concatenate S2097152x3 1 [⟨S2097152x1, G (Proc.devRef .tc main_v260)⟩, ⟨S2097152x1, G (Proc.devRef .tc main_v261)⟩,
          ⟨S2097152x1, G (Proc.devRef .tc main_v262)⟩] concatenates_S2097152x1_S2097152x1_S2097152x1_S2097152x3_d1 :=
  (nary3_result' _ hxs hy G).trans rfl

set_option maxHeartbeats 2000000 in
theorem P9_v260 (V0 : Valuation τ sig (Elt F)) :
    P9 V0 (Proc.devRef .tc main_v260) = col (z1 (args V0)) := by
  unfold P9; simp only [ops9, List.take]; read_results
  keep_down
  simp only [val2_v57]
  rfl

set_option maxHeartbeats 2000000 in
theorem P9_v261 (V0 : Valuation τ sig (Elt F)) :
    P9 V0 (Proc.devRef .tc main_v261) = col (y1 (args V0)) := by
  unfold P9; simp only [ops9, List.take]; read_results
  keep_down
  simp only [val2_v54]
  rfl

set_option maxHeartbeats 2000000 in
theorem P9_v262 (V0 : Valuation τ sig (Elt F)) :
    P9 V0 (Proc.devRef .tc main_v262) = col (x1 (args V0)) := by
  unfold P9; simp only [ops9, List.take]; read_results
  keep_down
  simp only [val2_v51]
  rfl

set_option maxHeartbeats 2000000 in
theorem val10_v271 (V0 : Valuation τ sig (Elt F)) :
    val 10 V0 (no_index (Proc.devRef .tc main_v271)) = result (args V0) := by
  rw [val10_cut]; simp only [ops9, List.drop]
  simp (disch := decide) only [after_cons, after_nil, nullary_result', unary_result', binary_result', concat_v263,
    nullary_result_ne', unary_result_ne', binary_result_ne', nary_result_ne']
  rw [P9_v260, P9_v261, P9_v262]
  simp (disch := decide) only [P9_keep']
  keep_down
  simp only [val9_v244, val1_v42, val1_v41, val1_v40, val1_v0]
  rfl

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v271)
          = result (F := F) ⟨m ((c.tc : Thread nD τ).loc main_arg0), m ((c.tc : Thread nD τ).loc main_arg1),
              m ((c.tc : Thread nD τ).loc main_arg2), m ((c.tc : Thread nD τ).loc main_arg3)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v271).trans ((congrFun (after_flatten _ _) _).trans (val10_v271 _)),
       (h c main_arg0).trans ((congrFun (after_flatten _ _) _).trans (afterN_of_not_written covers _ _ 10 (by decide))),
       (h c main_arg1).trans ((congrFun (after_flatten _ _) _).trans (afterN_of_not_written covers _ _ 10 (by decide))),
       (h c main_arg2).trans ((congrFun (after_flatten _ _) _).trans (afterN_of_not_written covers _ _ 10 (by decide))),
       (h c main_arg3).trans ((congrFun (after_flatten _ _) _).trans (afterN_of_not_written covers _ _ 10 (by decide)))⟩)
    (run_seq scopedRefs_eq scopedSems_eq defs main (fun _ => ops) main_eq (fun _ => ops_sub) m ρ
      (fun _ => List.forall_iff_forall_mem.mp ops_fresh))

end Cert.ReferenceIdeal.HostRun

end
-- ==== Proof.LibGatherPoints.lean ====
import Idealize.ShloMosaic.PureOps.ShapeOps
import Idealize.ShloMosaic.Lib.ValueIdx

-- A gather of single points of a rank-4 array by three index columns, read at an index.

namespace Idealize.ShloMosaic.GatherPoints

open Idealize.ShloMosaic Idealize.ShloMosaic.ValueIdx

variable {α : Type}

abbrev pointDims (C D H W R : Nat)
    (wf : GatherDims.WF ⟨4, ![C, D, H, W]⟩ ⟨2, ![R, 3]⟩ ⟨2, ![C, R]⟩ [0] [1, 2, 3] [] [1, 2, 3] [] 1 ![C, 1, 1, 1]) :
    GatherDims ⟨4, ![C, D, H, W]⟩ ⟨2, ![R, 3]⟩ ⟨2, ![C, R]⟩ where
  offsetDims := [0]
  collapsedSliceDims := [1, 2, 3]
  operandBatchingDims := []
  startIndicesBatchingDims := []
  startIndexMap := [1, 2, 3]
  indexVectorDim := 1
  sliceSizes := ![C, 1, 1, 1]
  wf := wf

section
variable {C D H W R w : Nat}
  (wf : GatherDims.WF ⟨4, ![C, D, H, W]⟩ ⟨2, ![R, 3]⟩ ⟨2, ![C, R]⟩ [0] [1, 2, 3] [] [1, 2, 3] [] 1 ![C, 1, 1, 1])

theorem zero_not_mem_spatial : (0 : Fin 4) ∉ ([1, 2, 3] : List (Fin 4)) := by decide

theorem one_mem_spatial : (1 : Fin 4) ∈ ([1, 2, 3] : List (Fin 4)) := by decide

theorem two_mem_spatial : (2 : Fin 4) ∈ ([1, 2, 3] : List (Fin 4)) := by decide

theorem three_mem_spatial : (3 : Fin 4) ∈ ([1, 2, 3] : List (Fin 4)) := by decide

theorem channel_kept : (0 : Fin 4) ∈ (pointDims C D H W R wf).sKept :=
  (GatherDims.mem_sKept _ _).mpr ⟨zero_not_mem_spatial, List.not_mem_nil⟩

theorem spatial_not_kept (a : Fin 4) (ha : a ∈ ([1, 2, 3] : List (Fin 4))) : a ∉ (pointDims C D H W R wf).sKept :=
  fun h => ((GatherDims.mem_sKept _ _).mp h).1 ha

theorem siIdx_point (c : Fin C) (e : Fin R) (k : Fin 3) :
    (pointDims C D H W R wf).siIdx (ix2 c e) k = ix2 e k := by
  funext b; refine Fin.ext ?_
  match b with
  | ⟨0, _⟩ => rfl
  | ⟨1, _⟩ => rfl

theorem operandIdx_channel (idx : IVec ⟨2, ![R, 3]⟩ w) (c : Fin C) (e : Fin R) :
    ((pointDims C D H W R wf).operandIdx (ix2 c e) idx 0).val = c.val := by
  show (pointDims C D H W R wf).start (ix2 c e) idx 0 + (pointDims C D H W R wf).batchCoord (ix2 c e) 0
    + (pointDims C D H W R wf).offCoord (ix2 c e) 0 = _
  rw [GatherDims.batchCoord_eq_zero _ _ _ List.not_mem_nil]
  unfold GatherDims.start
  rw [dif_neg (show (0 : Fin 4) ∉ (pointDims C D H W R wf).startIndexMap from zero_not_mem_spatial)]
  unfold GatherDims.offCoord
  rw [dif_pos (channel_kept wf)]
  simp only [Nat.add_zero, Nat.zero_add]
  rfl

theorem operandIdx_depth (idx : IVec ⟨2, ![R, 3]⟩ w) (c : Fin C) (e : Fin R) :
    ((pointDims C D H W R wf).operandIdx (ix2 c e) idx 1).val = min (idx (ix2 e (0 : Fin 3))).toInt.toNat (D - 1) := by
  show (pointDims C D H W R wf).start (ix2 c e) idx 1 + (pointDims C D H W R wf).batchCoord (ix2 c e) 1
    + (pointDims C D H W R wf).offCoord (ix2 c e) 1 = _
  rw [GatherDims.batchCoord_eq_zero _ _ _ List.not_mem_nil,
    GatherDims.offCoord_eq_zero _ _ _ (spatial_not_kept wf 1 one_mem_spatial)]
  simp only [Nat.add_zero]
  unfold GatherDims.start
  rw [dif_pos (show (1 : Fin 4) ∈ (pointDims C D H W R wf).startIndexMap from one_mem_spatial), siIdx_point wf c e]
  rfl

theorem operandIdx_height (idx : IVec ⟨2, ![R, 3]⟩ w) (c : Fin C) (e : Fin R) :
    ((pointDims C D H W R wf).operandIdx (ix2 c e) idx 2).val = min (idx (ix2 e (1 : Fin 3))).toInt.toNat (H - 1) := by
  show (pointDims C D H W R wf).start (ix2 c e) idx 2 + (pointDims C D H W R wf).batchCoord (ix2 c e) 2
    + (pointDims C D H W R wf).offCoord (ix2 c e) 2 = _
  rw [GatherDims.batchCoord_eq_zero _ _ _ List.not_mem_nil,
    GatherDims.offCoord_eq_zero _ _ _ (spatial_not_kept wf 2 two_mem_spatial)]
  simp only [Nat.add_zero]
  unfold GatherDims.start
  rw [dif_pos (show (2 : Fin 4) ∈ (pointDims C D H W R wf).startIndexMap from two_mem_spatial), siIdx_point wf c e]
  rfl

theorem operandIdx_width (idx : IVec ⟨2, ![R, 3]⟩ w) (c : Fin C) (e : Fin R) :
    ((pointDims C D H W R wf).operandIdx (ix2 c e) idx 3).val = min (idx (ix2 e (2 : Fin 3))).toInt.toNat (W - 1) := by
  show (pointDims C D H W R wf).start (ix2 c e) idx 3 + (pointDims C D H W R wf).batchCoord (ix2 c e) 3
    + (pointDims C D H W R wf).offCoord (ix2 c e) 3 = _
  rw [GatherDims.batchCoord_eq_zero _ _ _ List.not_mem_nil,
    GatherDims.offCoord_eq_zero _ _ _ (spatial_not_kept wf 3 three_mem_spatial)]
  simp only [Nat.add_zero]
  unfold GatherDims.start
  rw [dif_pos (show (3 : Fin 4) ∈ (pointDims C D H W R wf).startIndexMap from three_mem_spatial), siIdx_point wf c e]
  rfl

theorem gather_points_apply (hD : 0 < D) (hH : 0 < H) (hW : 0 < W) (x : (⟨4, ![C, D, H, W]⟩ : Shape).Idx → α)
    (idx : IVec ⟨2, ![R, 3]⟩ w) (c : Fin C) (e : Fin R) :
    Host.gather (pointDims C D H W R wf) x idx (ix2 c e)
      = x (ix4 c ⟨min (idx (ix2 e (0 : Fin 3))).toInt.toNat (D - 1), by omega⟩
          ⟨min (idx (ix2 e (1 : Fin 3))).toInt.toNat (H - 1), by omega⟩
          ⟨min (idx (ix2 e (2 : Fin 3))).toInt.toNat (W - 1), by omega⟩) := by
  unfold Host.gather
  congr 1
  funext a
  refine Fin.ext ?_
  match a with
  | ⟨0, _⟩ => exact operandIdx_channel wf idx c e
  | ⟨1, _⟩ => exact operandIdx_depth wf idx c e
  | ⟨2, _⟩ => exact operandIdx_height wf idx c e
  | ⟨3, _⟩ => exact operandIdx_width wf idx c e

theorem gather_points_apply_of_lt (x : (⟨4, ![C, D, H, W]⟩ : Shape).Idx → α) (idx : IVec ⟨2, ![R, 3]⟩ w)
    (c : Fin C) (e : Fin R)
    (h0 : 0 ≤ (idx (ix2 e (0 : Fin 3))).toInt) (hlt0 : (idx (ix2 e (0 : Fin 3))).toInt < D)
    (h1 : 0 ≤ (idx (ix2 e (1 : Fin 3))).toInt) (hlt1 : (idx (ix2 e (1 : Fin 3))).toInt < H)
    (h2 : 0 ≤ (idx (ix2 e (2 : Fin 3))).toInt) (hlt2 : (idx (ix2 e (2 : Fin 3))).toInt < W) :
    Host.gather (pointDims C D H W R wf) x idx (ix2 c e)
      = x (ix4 c ⟨(idx (ix2 e (0 : Fin 3))).toInt.toNat, by omega⟩
          ⟨(idx (ix2 e (1 : Fin 3))).toInt.toNat, by omega⟩
          ⟨(idx (ix2 e (2 : Fin 3))).toInt.toNat, by omega⟩) := by
  rw [gather_points_apply wf (by omega) (by omega) (by omega) x idx c e]
  congr 2
  · exact Fin.ext (Nat.min_eq_left (by omega))
  · exact Fin.ext (Nat.min_eq_left (by omega))
  · exact Fin.ext (Nat.min_eq_left (by omega))

end

end Idealize.ShloMosaic.GatherPoints
-- ==== Proof.RefValue.lean ====
import proofs.«109906_j49606872269475_1_alg».proof.Proof.RefStages
import proofs.«109906_j49606872269475_1_alg».proof.Proof.LibGatherPoints
import Idealize.ShloMosaic.Lib.Pipeline.Value

-- The reference's result read at an index: each corner term is a table entry times a product of three weights.

noncomputable section

namespace Cert.ReferenceIdeal.RefValue

open Cert.ReferenceIdeal Cert.ReferenceIdeal.Gen Cert.ReferenceIdeal.Stages Idealize.ShloMosaic Idealize.ShloMosaic.ValueIdx

variable {F : FTy → Type} [FloatOps F]

section Columns
variable {α : Type} {N : Nat}

theorem concatenate_cols3_apply_zero (a b c : (⟨2, ![N, 1]⟩ : Shape).Idx → α)
    (h : Shape.Concatenates [(⟨2, ![N, 1]⟩ : Shape), ⟨2, ![N, 1]⟩, ⟨2, ![N, 1]⟩] ⟨2, ![N, 3]⟩ 1) (e : Fin N) :
    concatenate ⟨2, ![N, 3]⟩ 1 [⟨⟨2, ![N, 1]⟩, a⟩, ⟨⟨2, ![N, 1]⟩, b⟩, ⟨⟨2, ![N, 1]⟩, c⟩] h (ix2 e (0 : Fin 3))
      = a (ix2 e (0 : Fin 1)) := by
  refine concatenate_apply_piece 1 [⟨⟨2, ![N, 1]⟩, a⟩, ⟨⟨2, ![N, 1]⟩, b⟩, ⟨⟨2, ![N, 1]⟩, c⟩] h (ix2 e (0 : Fin 3)) 0
    (by show (0 : Nat) < 3; decide) ⟨2, ![N, 1]⟩ a rfl rfl 0 rfl
    (ix2 e (0 : Fin 1)) ?_ rfl
  intro d hd
  match d with
  | ⟨0, _⟩ => rfl
  | ⟨1, _⟩ => exact absurd rfl hd

theorem concatenate_cols3_apply_one (a b c : (⟨2, ![N, 1]⟩ : Shape).Idx → α)
    (h : Shape.Concatenates [(⟨2, ![N, 1]⟩ : Shape), ⟨2, ![N, 1]⟩, ⟨2, ![N, 1]⟩] ⟨2, ![N, 3]⟩ 1) (e : Fin N) :
    concatenate ⟨2, ![N, 3]⟩ 1 [⟨⟨2, ![N, 1]⟩, a⟩, ⟨⟨2, ![N, 1]⟩, b⟩, ⟨⟨2, ![N, 1]⟩, c⟩] h (ix2 e (1 : Fin 3))
      = b (ix2 e (0 : Fin 1)) := by
  refine concatenate_apply_piece 1 [⟨⟨2, ![N, 1]⟩, a⟩, ⟨⟨2, ![N, 1]⟩, b⟩, ⟨⟨2, ![N, 1]⟩, c⟩] h (ix2 e (1 : Fin 3)) 1
    (by show (1 : Nat) < 3; decide) ⟨2, ![N, 1]⟩ b rfl rfl 1 rfl
    (ix2 e (0 : Fin 1)) ?_ rfl
  intro d hd
  match d with
  | ⟨0, _⟩ => rfl
  | ⟨1, _⟩ => exact absurd rfl hd

theorem concatenate_cols3_apply_two (a b c : (⟨2, ![N, 1]⟩ : Shape).Idx → α)
    (h : Shape.Concatenates [(⟨2, ![N, 1]⟩ : Shape), ⟨2, ![N, 1]⟩, ⟨2, ![N, 1]⟩] ⟨2, ![N, 3]⟩ 1) (e : Fin N) :
    concatenate ⟨2, ![N, 3]⟩ 1 [⟨⟨2, ![N, 1]⟩, a⟩, ⟨⟨2, ![N, 1]⟩, b⟩, ⟨⟨2, ![N, 1]⟩, c⟩] h (ix2 e (2 : Fin 3))
      = c (ix2 e (0 : Fin 1)) := by
  refine concatenate_apply_piece 1 [⟨⟨2, ![N, 1]⟩, a⟩, ⟨⟨2, ![N, 1]⟩, b⟩, ⟨⟨2, ![N, 1]⟩, c⟩] h (ix2 e (2 : Fin 3)) 2
    (by show (2 : Nat) < 3; decide) ⟨2, ![N, 1]⟩ c rfl rfl 2 rfl
    (ix2 e (0 : Fin 1)) ?_ rfl
  intro d hd
  match d with
  | ⟨0, _⟩ => rfl
  | ⟨1, _⟩ => exact absurd rfl hd

end Columns

-- a grid node is not negative, so the gather's wrap of negative indices keeps it
theorem col_apply (v : IVec S2097152 32) (n : Fin 2097152) (h : 0 ≤ (v (ix1 n)).toInt) :
    col v (ix2 n (0 : Fin 1)) = v (ix1 n) := by
  unfold col
  rw [broadcastInDim_apply _ bcast_S2097152_S2097152x1_0 _ (ix2 n (0 : Fin 1)) (ix1 n)
    (fun a => match a with
      | ⟨0, _⟩ => by show n.val = if (2097152 : Nat) = 1 then 0 else n.val; rw [if_neg (by decide)])]
  show Scalar.select (IntOp.cmpi .slt (v (ix1 n)) (ifill 0#32 (ix1 n))) (IntOp.addi (v (ix1 n)) (ifill 160#32 (ix1 n))) (v (ix1 n))
    = v (ix1 n)
  rw [ifill_apply, IntIndex.cmpi_slt_zero _ h, select_zero]

theorem gather_corner (g : FVec F S12x160x160x160 .f32) (idx : IVec S2097152x3 32) (z y x : IVec S2097152 32)
    (n : Fin 2097152) (q : Fin 12) (e0 : idx (ix2 n (0 : Fin 3)) = z (ix1 n)) (e1 : idx (ix2 n (1 : Fin 3)) = y (ix1 n))
    (e2 : idx (ix2 n (2 : Fin 3)) = x (ix1 n)) :
    Host.gather gather_S12x160x160x160_S2097152x3_S12x2097152_0_123_n_n_123_1_12111 g idx (ix2 q n)
      = Cert.Spec.corner g z y x n q := by
  show Host.gather (GatherPoints.pointDims 12 160 160 160 2097152
      gather_S12x160x160x160_S2097152x3_S12x2097152_0_123_n_n_123_1_12111_wf) g idx (ix2 q n) = _
  rw [GatherPoints.gather_points_apply _ (by decide) (by decide) (by decide)]
  unfold Cert.Spec.corner
  congr 2
  · exact Fin.ext (show min (idx (ix2 n (0 : Fin 3))).toInt.toNat (160 - 1) = min (z (ix1 n)).toInt.toNat 159 by rw [e0])
  · exact Fin.ext (show min (idx (ix2 n (1 : Fin 3))).toInt.toNat (160 - 1) = min (y (ix1 n)).toInt.toNat 159 by rw [e1])
  · exact Fin.ext (show min (idx (ix2 n (2 : Fin 3))).toInt.toNat (160 - 1) = min (x (ix1 n)).toInt.toNat 159 by rw [e2])

theorem weight_apply (a b c : FVec F S2097152 .f32) (n : Fin 2097152) (q : Fin 12) :
    broadcastInDim S12x2097152 ![0, 1] bcast_S1x2097152_S12x2097152_0_1
        (broadcastInDim S1x2097152 ![1] bcast_S2097152_S1x2097152_1 (mulf (mulf a b) c)) (ix2 q n)
      = Cert.Spec.weight (a (ix1 n)) (b (ix1 n)) (c (ix1 n)) := by
  rw [broadcastInDim_apply _ bcast_S1x2097152_S12x2097152_0_1 _ (ix2 q n) (ix2 (0 : Fin 1) n)
    (fun d => match d with
      | ⟨0, _⟩ => by show 0 = if (1 : Nat) = 1 then 0 else q.val; rw [if_pos rfl]
      | ⟨1, _⟩ => by show n.val = if (2097152 : Nat) = 1 then 0 else n.val; rw [if_neg (by decide)])]
  rw [broadcastInDim_apply _ bcast_S2097152_S1x2097152_1 _ (ix2 (0 : Fin 1) n) (ix1 n)
    (fun d => match d with
      | ⟨0, _⟩ => by show n.val = if (2097152 : Nat) = 1 then 0 else n.val; rw [if_neg (by decide)])]
  rfl

theorem term_apply (g : FVec F S12x160x160x160 .f32) (z y x : IVec S2097152 32) (a b c : FVec F S2097152 .f32)
    (n : Fin 2097152) (q : Fin 12)
    (hz : 0 ≤ (z (ix1 n)).toInt) (hy : 0 ≤ (y (ix1 n)).toInt) (hx : 0 ≤ (x (ix1 n)).toInt) :
    term g z y x a b c (ix2 q n)
      = FloatOps.mulf (Cert.Spec.corner g z y x n q) (Cert.Spec.weight (a (ix1 n)) (b (ix1 n)) (c (ix1 n))) :=
  congrArg₂ FloatOps.mulf
    (gather_corner g _ z y x n q
      (by rw [concatenate_cols3_apply_zero, col_apply z n hz])
      (by rw [concatenate_cols3_apply_one, col_apply y n hy])
      (by rw [concatenate_cols3_apply_two, col_apply x n hx]))
    (weight_apply a b c n q)

theorem addf_at {S : Shape} (f g : Vec F S .f32) (i : S.Idx) : addf f g i = FloatOps.addf (f i) (g i) := rfl

-- the reference's result, entry by entry: the eight corner terms in the order of `Cert.Spec.tri`
theorem ref_at (a : Args F) (n : Fin 2097152) (q : Fin 12) :
    result a (ix2 n q) = interp a n q := by
  have hx0 : 0 ≤ (x0 a (ix1 n)).toInt := (clip_range _ _).1
  have hy0 : 0 ≤ (y0 a (ix1 n)).toInt := (clip_range _ _).1
  have hz0 : 0 ≤ (z0 a (ix1 n)).toInt := (clip_range _ _).1
  have hx1 : 0 ≤ (x1 a (ix1 n)).toInt := (clip_range _ _).1
  have hy1 : 0 ≤ (y1 a (ix1 n)).toInt := (clip_range _ _).1
  have hz1 : 0 ≤ (z1 a (ix1 n)).toInt := (clip_range _ _).1
  unfold result
  rw [transpose_apply [1, 0] (s8 a) transposes_S12x2097152_S2097152x12_1_0 (ix2 n q) (ix2 q n)
    (fun b => match b with | ⟨0, _⟩ => rfl | ⟨1, _⟩ => rfl)]
  unfold s8 s7 s6 s5 s4 s3 s2 s1
  simp only [addf_at]
  rw [term_apply _ _ _ _ _ _ _ n q hz0 hy0 hx0, term_apply _ _ _ _ _ _ _ n q hz0 hy0 hx1, term_apply _ _ _ _ _ _ _ n q hz0 hy1 hx0,
    term_apply _ _ _ _ _ _ _ n q hz0 hy1 hx1, term_apply _ _ _ _ _ _ _ n q hz1 hy0 hx0, term_apply _ _ _ _ _ _ _ n q hz1 hy0 hx1,
    term_apply _ _ _ _ _ _ _ n q hz1 hy1 hx0, term_apply _ _ _ _ _ _ _ n q hz1 hy1 hx1]
  simp only [lower_apply]
  rfl

end Cert.ReferenceIdeal.RefValue

end
-- ==== Proof.lean ====
import proofs.«109906_j49606872269475_1_alg».proof.Defs
import proofs.«109906_j49606872269475_1_alg».proof.Proof.Gen.Kernel
import proofs.«109906_j49606872269475_1_alg».proof.Proof.Gen.Kernel.Skeleton
import proofs.«109906_j49606872269475_1_alg».proof.Proof.Gen.Kernel.Launch
import proofs.«109906_j49606872269475_1_alg».proof.Proof.Gen.Kernel.Points
import proofs.«109906_j49606872269475_1_alg».proof.Proof.Gen.Kernel.Frame
import proofs.«109906_j49606872269475_1_alg».proof.Proof.Gen.KernelIdeal
import proofs.«109906_j49606872269475_1_alg».proof.Proof.Gen.KernelIdeal.Skeleton
import proofs.«109906_j49606872269475_1_alg».proof.Proof.Gen.KernelIdeal.Launch
import proofs.«109906_j49606872269475_1_alg».proof.Proof.Gen.KernelIdeal.Points
import proofs.«109906_j49606872269475_1_alg».proof.Proof.Gen.KernelIdeal.Frame
import proofs.«109906_j49606872269475_1_alg».proof.Proof.Gen.KernelIdeal.Value
import proofs.«109906_j49606872269475_1_alg».proof.Proof.Gen.ReferenceIdeal
import proofs.«109906_j49606872269475_1_alg».proof.Proof.Gen.Pre_finite_inputs
import proofs.«109906_j49606872269475_1_alg».proof.Proof.KerValue
import proofs.«109906_j49606872269475_1_alg».proof.Proof.RefRun
import proofs.«109906_j49606872269475_1_alg».proof.Proof.RefValue
import Idealize.ShloMosaic.Adequacy
import Idealize.ShloMosaic.Init

/-
  Trilinear interpolation of a 12-channel 160 × 160 × 160 table at 2097152 points. Both programs find, by the same
  arithmetic, each point's three voxel coordinates, their fractional parts and the integer coordinates of its cell's two
  corners, clipped to [0, 159]. The reference reads the eight corners by their three coordinates; the kernel's program lays
  the table out with channels last and reads row z · 25600 + y · 160 + x. A clipped coordinate is a grid node, so both read
  the same entries, and both add the same eight products in the same order: index by index the two results are the one
  expression `Stages.interp`, over any float family.
-/

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

theorem algebraic : Cert.algebraic_KernelIdeal_ReferenceIdeal := by
  intro m ρ m' ρ' _ hagree
  refine ⟨fun c => (Cert.KernelIdeal.Gen.dats m 0 c).arrAt 11 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2]
  funext i
  obtain ⟨n, q, rfl⟩ : ∃ (n : Fin 2097152) (q : Fin 12), i = ix2 n q := ⟨i 0, i 1, eq_ix2 i⟩
  exact (Cert.ReferenceIdeal.RefValue.ref_at (F := Ideal) _ n q).trans
    (Cert.KernelIdeal.KerValue.kernel_at (F := Ideal) m c n q).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
